-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S1x16 : Shape := ⟨2, ![1, 16]⟩
abbrev S50000 : Shape := ⟨1, ![50000]⟩
abbrev S96x128 : Shape := ⟨2, ![96, 128]⟩
abbrev S128 : Shape := ⟨1, ![128]⟩
abbrev S128x128 : Shape := ⟨2, ![128, 128]⟩
abbrev S192x128 : Shape := ⟨2, ![192, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S1x16 : S_.BroadcastsInDim S1x16 (![] : Fin 0 → Fin S1x16.rank)
  reducesTo_S1x16_S_d0_1 : S1x16.ReducesTo [0, 1] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S192x128 : S_.BroadcastsInDim S192x128 (![] : Fin 0 → Fin S192x128.rank)
  reducesTo_S192x128_S_d0_1 : S192x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg13 : FVec F S128 .f32) (main_arg14 : FVec F S128 .f32) (main_arg15 : FVec F S128x64 .f32) (main_arg16 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg15
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S192x128 .f32) (main_arg12 : FVec F S128 .f32) (main_arg13 : FVec F S128 .f32) (main_arg14 : FVec F S128 .f32) (main_arg15 : FVec F S128x64 .f32) (main_arg16 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S192x128 .f32 := Host.absf main_arg11
  let main_cst_16 : FVec F S_ .f32 := constant S_ .f32 0x7F800000#32
  let main_v45 : FVec F S192x128 .f32 := broadcastInDim S192x128 ![] bcast_S_S192x128 main_cst_16
  let main_v46 : IVec S192x128 1 := cmpf .olt main_v44 main_v45
  let main_c_17 : IVec S_ 1 := constantI S_ 1 1#1
  let main_v47 : IVec S_ 1 := (fun x v => Host.reduce IntOp.andi x v reducesTo_S192x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S192x128 .f32) (main_arg12 : FVec F S128 .f32) (main_arg13 : FVec F S128 .f32) (main_arg14 : FVec F S128 .f32) (main_arg15 : FVec F S128x64 .f32) (main_arg16 : FVec F S64 .f32) (main_v13 : IVec S_ 1) (main_v16 : IVec S96x128 1) : IVec S_ 1 :=
  let main_c_5 : IVec S_ 1 := constantI S_ 1 1#1
  let main_v17 : IVec S_ 1 := (fun x v => Host.reduce IntOp.andi x v reducesTo_S96x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x64 .f32) (main_arg1 : IVec S2x800000 32) (main_arg2 : FVec F S800000x32 .f32) (main_arg3 : FVec F S1x16 .f32) (main_arg4 : IVec S50000 32) (main_arg5 : FVec F S96x128 .f32) (main_arg6 : FVec F S128 .f32) (main_arg7 : FVec F S128 .f32) (main_arg8 : FVec F S128 .f32) (main_arg9 : FVec F S128x128 .f32) (main_arg10 : FVec F S128 .f32) (main_arg11 : FVec F S192x128 .f32) (main_arg12 : FVec F S128 .f32) (main_arg13 : FVec F S128 .f32) (main_arg14 : FVec F S128 .f32) (main_arg15 : FVec F S128x64 .f32) (main_arg16 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S96x128 .f32 := Host.absf main_arg5
  let main_cst_4 : FVec F S_ .f32 := constant S_ .f32 0x7F800000#32
  let main_v15 : FVec F S96x128 .f32 := broadcastInDim S96x128 ![] bcast_S_S96x128 main_cst_4
  let main_v16 : IVec S96x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S1x16 : Shape := ⟨2, ![1, 16]⟩
abbrev S50000 : Shape := ⟨1, ![50000]⟩
abbrev S96x128 : Shape := ⟨2, ![96, 128]⟩
abbrev S128 : Shape := ⟨1, ![128]⟩
abbrev S128x128 : Shape := ⟨2, ![128, 128]⟩
abbrev S192x128 : Shape := ⟨2, ![192, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x128 : Shape := ⟨2, ![1, 128]⟩
abbrev S6400x64 : Shape := ⟨2, ![6400, 64]⟩
abbrev S6400x32 : Shape := ⟨2, ![6400, 32]⟩
abbrev S6400x128 : Shape := ⟨2, ![6400, 128]⟩
abbrev S6400x96 : Shape := ⟨2, ![6400, 96]⟩
abbrev S50000x128 : Shape := ⟨2, ![50000, 128]⟩
abbrev S5000x64 : Shape := ⟨2, ![5000, 64]⟩
abbrev S5000x128 : Shape := ⟨2, ![5000, 128]⟩
abbrev S5000x192 : Shape := ⟨2, ![5000, 192]⟩
abbrev S1x64 : Shape := ⟨2, ![1, 64]⟩

abbrev nBuf : Space → Nat
  | .hbm => 58
  | .vmem => 44
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S1x16, .f32⟩
  | .hbm, ⟨4, _⟩ => ⟨S50000, .i32⟩
  | .hbm, ⟨5, _⟩ => ⟨S96x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S192x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x128, .f32⟩
  | .hbm, ⟨31, _⟩ => ⟨S1x128, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S50000x64, .f32⟩
  | .local _ .vmem, ⟨0, _⟩ => ⟨S6400x64, .f32⟩
  | .local _ .vmem, ⟨1, _⟩ => ⟨S6400x64, .f32⟩
  | .local _ .vmem, ⟨2, _⟩ => ⟨S6400x32, .f32⟩
  | .local _ .vmem, ⟨3, _⟩ => ⟨S6400x32, .f32⟩
  | .local _ .vmem, ⟨4, _⟩ => ⟨S96x128, .f32⟩
  | .local _ .vmem, ⟨5, _⟩ => ⟨S128, .f32⟩
  | .local _ .vmem, ⟨6, _⟩ => ⟨S6400x128, .f32⟩
  | .local _ .vmem, ⟨7, _⟩ => ⟨S6400x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S6400x128, .f32⟩
  | .local _ .vmem, ⟨13, _⟩ => ⟨S6400x128, .f32⟩
  | .local _ .vmem, ⟨14, _⟩ => ⟨S1x128, .f32⟩
  | .local _ .vmem, ⟨15, _⟩ => ⟨S1x128, .f32⟩
  | .local _ .vmem, ⟨16, _⟩ => ⟨S128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S6400x128, .f32⟩
  | .local _ .vmem, ⟨21, _⟩ => ⟨S6400x128, .f32⟩
  | .local _ .vmem, ⟨22, _⟩ => ⟨S5000x64, .f32⟩
  | .local _ .vmem, ⟨23, _⟩ => ⟨S5000x64, .f32⟩
  | .local _ .vmem, ⟨24, _⟩ => ⟨S5000x128, .f32⟩
  | .local _ .vmem, ⟨25, _⟩ => ⟨S5000x128, .f32⟩
  | .local _ .vmem, ⟨26, _⟩ => ⟨S192x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S128, .f32⟩
  | .local _ .vmem, ⟨39, _⟩ => ⟨S128, .f32⟩
  | .local _ .vmem, ⟨40, _⟩ => ⟨S128x64, .f32⟩
  | .local _ .vmem, ⟨41, _⟩ => ⟨S64, .f32⟩
  | .local _ .vmem, ⟨42, _⟩ => ⟨S5000x64, .f32⟩
  | .local _ .vmem, ⟨43, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11_0 : Ref sig .tc := ⟨.hbm, 30, rfl⟩
abbrev main_v11_1 : Ref sig .tc := ⟨.hbm, 31, rfl⟩
abbrev main_v11_2 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22_0 : Ref sig .tc := ⟨.hbm, 46, rfl⟩
abbrev main_v22_1 : Ref sig .tc := ⟨.hbm, 47, rfl⟩
abbrev main_v22_2 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg6_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem6_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S192x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S6400x32_S6400x32_0_0 : ∀ a, (![0, 0] : Fin 2 → Nat) a + S6400x32.size a ≤ S6400x32.size a
  h_S6400x32 : 0 < S6400x32.numel
  concatenates_S6400x64_S6400x32_S6400x96_d1 : Shape.Concatenates [S6400x64, S6400x32] S6400x96 1
  bitsLt_bf16_f32 : FTy.bits .bf16 < FTy.bits .f32
  inb_S96x128_S96x128_0_0 : ∀ a, (![0, 0] : Fin 2 → Nat) a + S96x128.size a ≤ S96x128.size a
  h_S96x128 : 0 < S96x128.numel
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S6400x128_S6400x128_0_0 : ∀ a, (![0, 0] : Fin 2 → Nat) a + S6400x128.size a ≤ S6400x128.size a
  h_S6400x128 : 0 < S6400x128.numel
  reduces_S6400x128_S128 : S6400x128.Reduces [0] S128
  bcast_S_S1x128 : S_.BroadcastsInDim S1x128 (![] : Fin 0 → Fin S1x128.rank)
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  inb_S5000x64_S5000x64_0_0 : ∀ a, (![0, 0] : Fin 2 → Nat) a + S5000x64.size a ≤ S5000x64.size a
  h_S5000x64 : 0 < S5000x64.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x64_S5000x128_S5000x192_d1 : Shape.Concatenates [S5000x64, S5000x128] S5000x192 1
  inb_S192x128_S192x128_0_0 : ∀ a, (![0, 0] : Fin 2 → Nat) a + S192x128.size a ≤ S192x128.size a
  h_S192x128 : 0 < S192x128.numel
  broadcasts_S1x128_S5000x128 : S1x128.Broadcasts S5000x128
  reduces_S5000x128_S128 : S5000x128.Reduces [0] S128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S6400x96_S96x128_S6400x128_1_0_0_1_n_n_wf : DotDims.WF S6400x96 S96x128 S6400x128 [1] [0] [0] [1] [] []
  dot_S6400x128_S128x128_S6400x128_1_0_0_1_n_n_wf : DotDims.WF S6400x128 S128x128 S6400x128 [1] [0] [0] [1] [] []
  scatter_S50000x128_S800000x1_S800000x128_1_0_0_1_wf : ScatterDims.WF S50000x128 S800000x1 S800000x128 [1] [0] [0] 1
  dot_S5000x192_S192x128_S5000x128_1_0_0_1_n_n_wf : DotDims.WF S5000x192 S192x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S800000x64.size a
  hwx0_0 : ∀ i : grid0.Coords, EltTy.bits .f32 = 32 ∨ (Rect.block (s := S800000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x32.size a ≤ S800000x32.size a
  hwx0_1 : ∀ i : grid0.Coords, EltTy.bits .f32 = 32 ∨ (Rect.block (s := S800000x32) S6400x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x128.size a ≤ S96x128.size a
  hwx0_2 : ∀ i : grid0.Coords, EltTy.bits .f32 = 32 ∨ (Rect.block (s := S96x128) S96x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x128.size a ≤ S800000x128.size a
  hwx0_4 : ∀ i : grid0.Coords, EltTy.bits .f32 = 32 ∨ (Rect.block (s := S800000x128) S6400x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S800000x128.size a
  hwx1_0 : ∀ i : grid1.Coords, EltTy.bits .f32 = 32 ∨ (Rect.block (s := S800000x128) S6400x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6400x128.size a ≤ S800000x128.size a
  hwx1_7 : ∀ i : grid1.Coords, EltTy.bits .f32 = 32 ∨ (Rect.block (s := S800000x128) S6400x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S192x128.size a ≤ S192x128.size a
  hwx2_2 : ∀ i : grid2.Coords, EltTy.bits .f32 = 32 ∨ (Rect.block (s := S192x128) S192x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .f32 = 32 ∨ (Rect.block (s := S128x64) S128x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S50000x64.size a
  hwx3_7 : ∀ i : grid3.Coords, EltTy.bits .f32 = 32 ∨ (Rect.block (s := S50000x64) S5000x64.size (cc3_transform_7 i) (hinb3_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x96_S96x128_S6400x128_1_0_0_1_n_n : DotDims S6400x96 S96x128 S6400x128 where
  lhsContracting := [1]
  rhsContracting := [0]
  lhsNonContracting := [0]
  rhsNonContracting := [1]
  lhsBatch := []
  rhsBatch := []
  wf := dot_S6400x96_S96x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x192_S192x128_S5000x128_1_0_0_1_n_n : DotDims S5000x192 S192x128 S5000x128 where
  lhsContracting := [1]
  rhsContracting := [0]
  lhsNonContracting := [0]
  rhsNonContracting := [1]
  lhsBatch := []
  rhsBatch := []
  wf := dot_S5000x192_S192x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v10) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S96x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S6400x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v11_0) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S6400x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S192x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v22_1) S1x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22_2) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v22_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v28) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg16) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v29) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S1x16 : Shape := ⟨2, ![1, 16]⟩
abbrev S50000 : Shape := ⟨1, ![50000]⟩
abbrev S96x128 : Shape := ⟨2, ![96, 128]⟩
abbrev S128 : Shape := ⟨1, ![128]⟩
abbrev S128x128 : Shape := ⟨2, ![128, 128]⟩
abbrev S192x128 : Shape := ⟨2, ![192, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x96 : Shape := ⟨2, ![800000, 96]⟩
abbrev S800000x128 : Shape := ⟨2, ![800000, 128]⟩
abbrev S1x128 : Shape := ⟨2, ![1, 128]⟩
abbrev S50000x128 : Shape := ⟨2, ![50000, 128]⟩
abbrev S50000x192 : Shape := ⟨2, ![50000, 192]⟩
abbrev S1x64 : Shape := ⟨2, ![1, 64]⟩

abbrev nBuf : Space → Nat
  | .hbm => 146
  | .vmem => 0
  | .smem => 0
  | _ => 0

abbrev hbmTy0_0 (i : Nat) : BufTy := match i % 128 with
  | 0 => ⟨S50000x64, .f32⟩
  | 1 => ⟨S2x800000, .i32⟩
  | 2 => ⟨S800000x32, .f32⟩
  | 3 => ⟨S1x16, .f32⟩
  | 4 => ⟨S50000, .i32⟩
  | 5 => ⟨S96x128, .f32⟩
  | 6 => ⟨S128, .f32⟩
  | 7 => ⟨S128, .f32⟩
  | 8 => ⟨S128, .f32⟩
  | 9 => ⟨S128x128, .f32⟩
  | 10 => ⟨S128, .f32⟩
  | 11 => ⟨S192x128, .f32⟩
  | 12 => ⟨S128, .f32⟩
  | 13 => ⟨S128, .f32⟩
  | 14 => ⟨S128, .f32⟩
  | 15 => ⟨S128x64, .f32⟩
  | 16 => ⟨S64, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x64, .f32⟩
  | 30 => ⟨S800000x96, .f32⟩
  | 31 => ⟨S800000x128, .f32⟩
  | 32 => ⟨S1x128, .f32⟩
  | 33 => ⟨S800000x128, .f32⟩
  | 34 => ⟨S800000x128, .f32⟩
  | 35 => ⟨S_, .f32⟩
  | 36 => ⟨S128, .f32⟩
  | 37 => ⟨S_, .f32⟩
  | 38 => ⟨S128, .f32⟩
  | 39 => ⟨S128, .f32⟩
  | 40 => ⟨S_, .i32⟩
  | 41 => ⟨S_, .f32⟩
  | 42 => ⟨S128, .f32⟩
  | 43 => ⟨S1x128, .f32⟩
  | 44 => ⟨S_, .f32⟩
  | 45 => ⟨S1x128, .f32⟩
  | 46 => ⟨S1x128, .f32⟩
  | 47 => ⟨S800000x128, .f32⟩
  | 48 => ⟨S800000x128, .f32⟩
  | 49 => ⟨S800000x128, .f32⟩
  | 50 => ⟨S_, .f32⟩
  | 51 => ⟨S_, .f32⟩
  | 52 => ⟨S_, .f32⟩
  | 53 => ⟨S_, .f32⟩
  | 54 => ⟨S128, .f32⟩
  | 55 => ⟨S128, .f32⟩
  | 56 => ⟨S128, .f32⟩
  | 57 => ⟨S_, .f32⟩
  | 58 => ⟨S_, .i1⟩
  | 59 => ⟨S_, .f32⟩
  | 60 => ⟨S_, .f32⟩
  | 61 => ⟨S128, .f32⟩
  | 62 => ⟨S128, .f32⟩
  | 63 => ⟨S1x128, .f32⟩
  | 64 => ⟨S800000x128, .f32⟩
  | 65 => ⟨S800000x128, .f32⟩
  | 66 => ⟨S1x128, .f32⟩
  | 67 => ⟨S800000x128, .f32⟩
  | 68 => ⟨S800000x128, .f32⟩
  | 69 => ⟨S_, .f32⟩
  | 70 => ⟨S128, .f32⟩
  | 71 => ⟨S128, .f32⟩
  | 72 => ⟨S128, .f32⟩
  | 73 => ⟨S1x128, .f32⟩
  | 74 => ⟨S800000x128, .f32⟩
  | 75 => ⟨S800000x128, .f32⟩
  | 76 => ⟨S1x128, .f32⟩
  | 77 => ⟨S800000x128, .f32⟩
  | 78 => ⟨S800000x128, .f32⟩
  | 79 => ⟨S_, .f32⟩
  | 80 => ⟨S800000x128, .f32⟩
  | 81 => ⟨S800000x128, .f32⟩
  | 82 => ⟨S800000x128, .f32⟩
  | 83 => ⟨S1x128, .f32⟩
  | 84 => ⟨S800000x128, .f32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S50000x192, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S128, .f32⟩
  | 97 => ⟨S_, .f32⟩
  | 98 => ⟨S128, .f32⟩
  | 99 => ⟨S128, .f32⟩
  | 100 => ⟨S_, .i32⟩
  | 101 => ⟨S_, .f32⟩
  | 102 => ⟨S128, .f32⟩
  | 103 => ⟨S1x128, .f32⟩
  | 104 => ⟨S_, .f32⟩
  | 105 => ⟨S1x128, .f32⟩
  | 106 => ⟨S1x128, .f32⟩
  | 107 => ⟨S50000x128, .f32⟩
  | 108 => ⟨S50000x128, .f32⟩
  | 109 => ⟨S50000x128, .f32⟩
  | 110 => ⟨S_, .f32⟩
  | 111 => ⟨S_, .f32⟩
  | 112 => ⟨S_, .f32⟩
  | 113 => ⟨S_, .f32⟩
  | 114 => ⟨S128, .f32⟩
  | 115 => ⟨S128, .f32⟩
  | 116 => ⟨S128, .f32⟩
  | 117 => ⟨S_, .f32⟩
  | 118 => ⟨S_, .i1⟩
  | 119 => ⟨S_, .f32⟩
  | 120 => ⟨S_, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S1x128, .f32⟩
  | 127 => ⟨S50000x128, .f32⟩
  | _ => ⟨S50000x64, .f32⟩

abbrev hbmTy0_1 (i : Nat) : BufTy := match i % 128 with
  | 0 => ⟨S50000x128, .f32⟩
  | 1 => ⟨S_, .f32⟩
  | 2 => ⟨S128, .f32⟩
  | 3 => ⟨S128, .f32⟩
  | 4 => ⟨S128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S50000x128, .f32⟩
  | 13 => ⟨S50000x128, .f32⟩
  | 14 => ⟨S50000x64, .f32⟩
  | 15 => ⟨S1x64, .f32⟩
  | 16 => ⟨S50000x64, .f32⟩
  | 17 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_cst_2 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_cst_3 : Ref sig .tc := ⟨.hbm, 57, rfl⟩
abbrev main_call0_v12 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_cst_3 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_call1_cst : Ref sig .tc := ⟨.hbm, 79, rfl⟩
abbrev main_call1_v0 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_4 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_5 : Ref sig .tc := ⟨.hbm, 95, rfl⟩
abbrev main_v48 : Ref sig .tc := ⟨.hbm, 96, rfl⟩
abbrev main_cst_6 : Ref sig .tc := ⟨.hbm, 97, rfl⟩
abbrev main_v49 : Ref sig .tc := ⟨.hbm, 98, rfl⟩
abbrev main_v50 : Ref sig .tc := ⟨.hbm, 99, rfl⟩
abbrev main_c_7 : Ref sig .tc := ⟨.hbm, 100, rfl⟩
abbrev main_call2_cst : Ref sig .tc := ⟨.hbm, 101, rfl⟩
abbrev main_call2_v0 : Ref sig .tc := ⟨.hbm, 102, rfl⟩
abbrev main_call2_v1 : Ref sig .tc := ⟨.hbm, 103, rfl⟩
abbrev main_call2_cst_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_cst_1 : Ref sig .tc := ⟨.hbm, 111, rfl⟩
abbrev main_call2_v8 : Ref sig .tc := ⟨.hbm, 112, rfl⟩
abbrev main_call2_cst_2 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_cst_3 : Ref sig .tc := ⟨.hbm, 117, rfl⟩
abbrev main_call2_v12 : Ref sig .tc := ⟨.hbm, 118, rfl⟩
abbrev main_call2_cst_4 : Ref sig .tc := ⟨.hbm, 119, rfl⟩
abbrev main_call2_call0_v0 : Ref sig .tc := ⟨.hbm, 120, rfl⟩
abbrev main_call2_call0_v1 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_cst_8 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_call3_cst : Ref sig .tc := ⟨.hbm, 139, rfl⟩
abbrev main_call3_v0 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x32_S800000x96_d1 : Shape.Concatenates [S800000x64, S800000x32] S800000x96 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  reducesTo_S800000x128_S128_d0 : S800000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x64_S50000x128_S50000x192_d1 : Shape.Concatenates [S50000x64, S50000x128] S50000x192 1
  bcast_S1x128_S50000x128_0_1 : S1x128.BroadcastsInDim S50000x128 (![0, 1] : Fin 2 → Fin S50000x128.rank)
  reducesTo_S50000x128_S128_d0 : S50000x128.ReducesTo [0] S128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x96_S96x128_S800000x128_1_0_0_1_n_n_wf : DotDims.WF S800000x96 S96x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x192_S192x128_S50000x128_1_0_0_1_n_n_wf : DotDims.WF S50000x192 S192x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x96_S96x128_S800000x128_1_0_0_1_n_n : DotDims S800000x96 S96x128 S800000x128 where
  lhsContracting := [1]
  rhsContracting := [0]
  lhsNonContracting := [0]
  rhsNonContracting := [1]
  lhsBatch := []
  rhsBatch := []
  wf := dot_S800000x96_S96x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.K.Reg0.lean ====
import proofs.«128199_j65335042507073_1_alg».proof.Proof.Gen.Kernel.Launch
import proofs.«128199_j65335042507073_1_alg».proof.Proof.Gen.Kernel.Skeleton
import proofs.«128199_j65335042507073_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → Nat) = fun _ => 0 := funext fun a => by fin_cases a <;> rfl
private theorem hz1 : (![0] : Fin 1 → Nat) = fun _ => 0 := funext fun a => by fin_cases a <;> rfl

private theorem readAt_unit {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

private theorem read_writes_cons_unit (S : Shape) {sg : RefSig} {κ : Kind} {sp : Space} {e : EltTy} {Val : EltTy → Type}
    [∀ e, Nonempty (Val e)] {v : View sg κ sp S e} {f : v.ty.Contents Val} {off : Fin S.rank → Nat} (h : off = fun _ => 0)
    {inb : ∀ a, off a + S.size a ≤ S.size a} {w : S.Idx → Val e} {L : List (View.Piece Val S e)} :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

private theorem readCov_cons_unit (S : Shape) {sg : RefSig} {κ : Kind} {sp : Space} {e : EltTy} {Val : EltTy → Type}
    [∀ e, Nonempty (Val e)] {v : View sg κ sp S e} {off : Fin S.rank → Nat} (h : off = fun _ => 0)
    {inb : ∀ a, off a + S.size a ≤ S.size a} {w : S.Idx → Val e} {L : List (View.Piece Val S e)} :
    v.readCov ((⟨Rect.unit off S.size inb, w⟩ : View.Piece Val S e) :: L) (Rect.unit off S.size inb).toLoadRect = w :=
  (View.readCov_eq_canon_ld v _ _ (fun y => ⟨_, List.mem_cons_self, View.mem_set_unit_zero h inb y⟩)).trans
    ((congrArg (fun X => View.ld X (Rect.unit off S.size inb)) (View.canon_cons_unit_zero h inb w L)).trans
      (View.ld_unit_zero h inb w))

section
variable (V : (c : Dev nD) → (b : Ref sig .tc) → Buf (Elt F) ((c : Thread nD τ).loc b))

-- Window `w`'s block at point `t` of the arrays `V`.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0 (i : grid0.Coords) : Prop :=
  (Scalar.cmpi .ne (Scalar.extui (Scalar.cmpi .eq (BitVec.ofNat 32 (i 0).val) 0#32)) 0#32) = 1#1

theorem hcond0 : ∀ t : Fin cfg0.N, cond0 (grid0.coords t) ↔ t.val = 0 := by decide +kernel

section
variable (c : Dev nD) (i : grid0.Coords)
  (arg1 : Memref sig .tc .vmem S6400x64 .f32) (harg1 : arg1.IsWhole) (arg2 : Memref sig .tc .vmem S6400x32 .f32) (harg2 : arg2.IsWhole)
  (arg3 : Memref sig .tc .vmem S96x128 .f32) (harg3 : arg3.IsWhole) (arg4 : Memref sig .tc .vmem S128 .f32) (harg4 : arg4.IsWhole)
  (arg5 : Memref sig .tc .vmem S6400x128 .f32) (harg5 : arg5.IsWhole) (arg6 : Memref sig .tc .vmem S1x128 .f32) (harg6 : arg6.IsWhole)
  (arg7 : Memref sig .tc .vmem S1x128 .f32) (harg7 : arg7.IsWhole) (arg8 : Memref sig .tc .vmem S1x128 .f32) (harg8 : arg8.IsWhole)
  (arg9 : Memref sig .tc .vmem S1x128 .f32) (harg9 : arg9.IsWhole)
  (x0 : Vec F S6400x64 .f32) (x1 : Vec F S6400x32 .f32) (x2 : Vec F S96x128 .f32) (x3 : Vec F S128 .f32) (E : Set ℕ)

-- What the body is handed besides the two running sums and the rest `R`,
def pre0 (R : sProp 𝕄) : sProp 𝕄 :=
  iprop(owns c.tc arg1 fullShare x0 ∗ owns c.tc arg2 fullShare x1 ∗ owns c.tc arg3 fullShare x2 ∗ owns c.tc arg4 fullShare x3
    ∗ (∃ d, owns c.tc arg5 fullShare d) ∗ (∃ d, owns c.tc arg6 fullShare d) ∗ (∃ d, owns c.tc arg7 fullShare d) ∗ R)

-- and what it leaves when the running sums were `a0` and `a1`.
def post0 (a0 a1 : Vec F S1x128 .f32) : sProp 𝕄 :=
  iprop(owns c.tc arg1 fullShare x0 ∗ owns c.tc arg2 fullShare x1 ∗ owns c.tc arg3 fullShare x2 ∗ owns c.tc arg4 fullShare x3
    ∗ owns c.tc arg5 fullShare (k0_pay3 x0 x1 x2 x3)
    ∗ owns c.tc arg6 fullShare (k0_pay4 x0 x1 x2 x3 a0) ∗ owns c.tc arg7 fullShare (k0_pay5 x0 x1 x2 x3 a1)
    ∗ owns c.tc arg8 fullShare (k0_pay4 x0 x1 x2 x3 a0) ∗ owns c.tc arg9 fullShare (k0_pay5 x0 x1 x2 x3 a1))

set_option maxHeartbeats 1000000 in
theorem run0_first (K : PUnit → sProp 𝕄) (hc : cond0 i) :
    pre0 c arg1 arg2 arg3 arg4 arg5 arg6 arg7 x0 x1 x2 x3 iprop((∃ d, owns c.tc arg8 fullShare d) ∗ (∃ d, owns c.tc arg9 fullShare d)
      ∗ (post0 c arg1 arg2 arg3 arg4 arg5 arg6 arg7 arg8 arg9 x0 x1 x2 x3 k0_pay1 k0_pay2 -∗ K ⟨⟩))
    ⊢ wp frame (wpE (defs₀ (F := F)) Variants.none c none) E (cc0__k1a_kernel i arg1 harg1 arg2 harg2 arg3 harg3 arg4 harg4 arg5 harg5 arg6 harg6 arg7 harg7 arg8 harg8 arg9 harg9) K := by
  simp only [cc0__k1a_kernel_eq_skeleton]; unfold cc0__k1a_kernel_skel
  unfold pre0 post0 owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
  subst hf0 hf1 hf2 hf3
  have e0 := readAt_unit arg1.view f0 hz2 inb_S6400x64_S6400x64_0_0
  have e1 := readAt_unit arg2.view f1 hz2 inb_S6400x32_S6400x32_0_0
  have e2 := readAt_unit arg3.view f2 hz2 inb_S96x128_S96x128_0_0
  have e3 := readAt_unit arg4.view f3 hz1 inb_S128_S128_0
  sl_exec (disch := first | exact hc)
  sl_step
  iapply Hk
  isplitl [H0]; rotate_left
  isplitl [H1]; rotate_left
  isplitl [H2]; rotate_left
  isplitl [H3]; rotate_left
  isplitl [H4]; rotate_left
  isplitl [H5]; rotate_left
  isplitl [H6]; rotate_left
  isplitl [HS0]; rotate_left
  all_goals
    iexists _; iframe; ipureintro
    repeat first | rw [read_writes_cons_unit S6400x128 hz2] | rw [read_writes_cons_unit S1x128 hz2] | rw [readCov_cons_unit S1x128 hz2] | unfold run0_first.sl.v31 | unfold run0_first.sl.HS0_2 | unfold run0_first.sl.v16 | unfold run0_first.sl.HS0_1 | unfold run0_first.sl.v33 | unfold run0_first.sl.HS1_2 | unfold run0_first.sl.v23 | unfold run0_first.sl.HS1_1 | rfl

set_option maxHeartbeats 1000000 in
theorem run0_later (K : PUnit → sProp 𝕄) (hc : ¬cond0 i) (xs0 xs1 : Vec F S1x128 .f32) :
    pre0 c arg1 arg2 arg3 arg4 arg5 arg6 arg7 x0 x1 x2 x3 iprop(owns c.tc arg8 fullShare xs0 ∗ owns c.tc arg9 fullShare xs1
      ∗ (post0 c arg1 arg2 arg3 arg4 arg5 arg6 arg7 arg8 arg9 x0 x1 x2 x3 xs0 xs1 -∗ K ⟨⟩))
    ⊢ wp frame (wpE (defs₀ (F := F)) Variants.none c none) E (cc0__k1a_kernel i arg1 harg1 arg2 harg2 arg3 harg3 arg4 harg4 arg5 harg5 arg6 harg6 arg7 harg7 arg8 harg8 arg9 harg9) K := by
  simp only [cc0__k1a_kernel_eq_skeleton]; unfold cc0__k1a_kernel_skel
  unfold pre0 post0 owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
  subst hf0 hf1 hf2 hf3 hfs0 hfs1
  have e0 := readAt_unit arg1.view f0 hz2 inb_S6400x64_S6400x64_0_0
  have e1 := readAt_unit arg2.view f1 hz2 inb_S6400x32_S6400x32_0_0
  have e2 := readAt_unit arg3.view f2 hz2 inb_S96x128_S96x128_0_0
  have e3 := readAt_unit arg4.view f3 hz1 inb_S128_S128_0
  have es0 := readAt_unit arg8.view fs0 hz2 inb_S1x128_S1x128_0_0
  have es1 := readAt_unit arg9.view fs1 hz2 inb_S1x128_S1x128_0_0
  sl_exec (disch := first | exact hc)
  sl_step
  iapply Hk
  isplitl [H0]; rotate_left
  isplitl [H1]; rotate_left
  isplitl [H2]; rotate_left
  isplitl [H3]; rotate_left
  isplitl [H4]; rotate_left
  isplitl [H5]; rotate_left
  isplitl [H6]; rotate_left
  isplitl [HS0]; rotate_left
  all_goals
    iexists _; iframe; ipureintro
    repeat first | rw [read_writes_cons_unit S6400x128 hz2] | rw [read_writes_cons_unit S1x128 hz2] | rw [readCov_cons_unit S1x128 hz2] | unfold run0_later.sl.v31 | unfold run0_later.sl.HS0_1 | unfold run0_later.sl.v33 | unfold run0_later.sl.HS1_1 | rfl

end

-- One point's update of the two running column sums (of the stored block and of its squares).
def step0 (c : Dev nD) (t : Fin cfg0.N) (a : Vec F S1x128 .f32 × Vec F S1x128 .f32) : Vec F S1x128 .f32 × Vec F S1x128 .f32 :=
  (k0_pay4 (iblk0 V c 0 t) (iblk0 V c 1 t) (iblk0 V c 2 t) (iblk0 V c 3 t) a.1, k0_pay5 (iblk0 V c 0 t) (iblk0 V c 1 t) (iblk0 V c 2 t) (iblk0 V c 3 t) a.2)

-- The running sums after point `n`: the updates of points `0 … n` applied in order to the zero vectors.
def acc0 (c : Dev nD) : (n : ℕ) → n < cfg0.N → Vec F S1x128 .f32 × Vec F S1x128 .f32
  | 0, hn => step0 V c ⟨0, hn⟩ (k0_pay1, k0_pay2)
  | n + 1, hn => step0 V c ⟨n + 1, hn⟩ (acc0 c n (Nat.lt_of_succ_lt hn))

abbrev scM0_0 : Memref sig .tc .vmem S1x128 .f32 := Memref.whole cc0_scratch0
abbrev scM0_1 : Memref sig .tc .vmem S1x128 .f32 := Memref.whole cc0_scratch1

-- The region's resources, the two accumulators' part being `A`.
def inv0 (c : Dev nD) (A : sProp 𝕄) : sProp 𝕄 :=
  iprop(iprop(A ∗ Pipeline.scopedRestBut (Ix := Unit) (Name := ℕ) (U := UR sig nD τ) (Lvl := ℕ) (Val := Elt F) spec0 c [cc0_scratch0, cc0_scratch1]) ∗ (∃ r, prngReg c r))

-- The invariant: before point `n + 1` the two accumulators hold the running sums after point `n`; before the first point, anything.
def Phi0 (c : Dev nD) : (n : ℕ) → n ≤ cfg0.N → sProp 𝕄
  | 0, _ => Pipeline.ΦA spec0 c
  | n + 1, hn => inv0 c iprop(owns c.tc scM0_0 fullShare (acc0 V c n hn).1 ∗ owns c.tc scM0_1 fullShare (acc0 V c n hn).2)

theorem PhiA0_eq (c : Dev nD) :
    (Pipeline.ΦA spec0 c : sProp 𝕄) = inv0 c iprop((∃ d, owns c.tc scM0_0 fullShare d) ∗ (∃ d, owns c.tc scM0_1 fullShare d)) := by
  unfold Pipeline.ΦA inv0; rw [scopedRest0_split]; simp only [scM0_0, scM0_1, owns_whole]; try rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (iblk0 V c 0 t) (iblk0 V c 1 t) (iblk0 V c 2 t) (iblk0 V c 3 t)
    | ⟨5, _⟩ => (acc0 V c t.val t.isLt).1
    | ⟨6, _⟩ => (acc0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := rfl
theorem after0_4_eq (c : Dev nD) (t : Fin cfg0.N) : (dat0 V c).after 4 t = k0_pay3 (iblk0 V c 0 t) (iblk0 V c 1 t) (iblk0 V c 2 t) (iblk0 V c 3 t) := rfl
theorem after0_5 (c : Dev nD) (t : Fin cfg0.N) : (dat0 V c).after 5 t = (acc0 V c t.val t.isLt).1 := rfl
theorem after0_6 (c : Dev nD) (t : Fin cfg0.N) : (dat0 V c).after 6 t = (acc0 V c t.val t.isLt).2 := rfl

theorem body_obligation0 (c : Dev nD) : BodyObligation (dat0 (F := F) V c) (defs₀ (F := F)) Variants.none () Set.univ := fun t => by
  rw [bigSep_W0, bigSep_W0]
  simp only [(dat0 V c).before_in_eq_fetched 0 rfl (fun _ => rfl) (fun _ _ _ => rfl) fun _ => rfl, (dat0 V c).before_in_eq_fetched 1 rfl (fun _ => rfl) (fun _ _ _ => rfl) fun _ => rfl,
    (dat0 V c).before_in_eq_fetched 2 rfl (fun _ => rfl) (fun _ _ _ => rfl) fun _ => rfl, (dat0 V c).before_in_eq_fetched 3 rfl (fun _ => rfl) (fun _ _ _ => rfl) fun _ => rfl]
  rw [show (dat0 V c).Φ t.castSucc = Phi0 V c t.val (Nat.le_of_lt t.isLt) from rfl,
    show (dat0 V c).Φ t.succ = inv0 c iprop(owns c.tc scM0_0 fullShare ((dat0 V c).after 5 t) ∗ owns c.tc scM0_1 fullShare ((dat0 V c).after 6 t)) from rfl]
  obtain ⟨_ | n, hn⟩ := t <;> simp only [Phi0, PhiA0_eq, inv0] <;>
    iintro ⟨⟨⟨⟨HS0, HS1⟩, Hr⟩, Hg⟩, Ho, ⟨%_, H0⟩, ⟨%_, H1⟩, ⟨%_, H2⟩, ⟨%_, H3⟩, ⟨%_, H4⟩, ⟨%_, H5⟩, ⟨%_, H6⟩⟩
  on_goal 1 => iapply (run0_first c _ _ _ _ _ _ _ _ _ _ _ _ _ _ _ _ _ _ _ _ _ _ _ Set.univ _ ((hcond0 _).mpr rfl))
  on_goal -1 => iapply (run0_later c _ _ _ _ _ _ _ _ _ _ _ _ _ _ _ _ _ _ _ _ _ _ _ Set.univ _ (fun h => Nat.succ_ne_zero _ ((hcond0 _).mp h)) _ _)
  all_goals
    unfold pre0 post0
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hr Hg]
    · iframe Hr Hg
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem hin0 (c : Dev nD) : (Pipeline.ΦA spec0 c : sProp 𝕄) ⊢ (dat0 V c).Φ 0 := Idealize.SL.BI.Entails.refl _

theorem hout0 (c : Dev nD) : (dat0 V c).Φ (Fin.last cfg0.N) ⊢ (Pipeline.ΦA spec0 c : sProp 𝕄) := by
  show Phi0 V c (124 + 1) _ ⊢ _
  simp only [Phi0, PhiA0_eq, inv0]
  iintro ⟨⟨⟨HS0, HS1⟩, Hr⟩, Hg⟩
  iframe Hr Hg
  isplitl [HS0]
  · iexists _; iexact HS0
  · iexists _; iexact HS1

end

end Cert.Kernel.Hand

end
-- ==== Proof.K.Reg1.lean ====
import proofs.«128199_j65335042507073_1_alg».proof.Proof.Gen.Kernel.Launch
import proofs.«128199_j65335042507073_1_alg».proof.Proof.Gen.Kernel.Skeleton
import proofs.«128199_j65335042507073_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S6400x128 := Rect.unit (s := S6400x128) ![0, 0] S6400x128.size inb_S6400x128_S6400x128_0_0
abbrev r1_1 : Rect S1x128 := Rect.unit (s := S1x128) ![0, 0] S1x128.size inb_S1x128_S1x128_0_0
abbrev r1_2 : Rect S128 := Rect.unit (s := S128) ![0] S128.size inb_S128_S128_0
abbrev r1_3 : Rect S128x128 := Rect.unit (s := S128x128) ![0, 0] S128x128.size inb_S128x128_S128x128_0_0

theorem zeros1_2 : (![0, 0] : Fin 2 → Nat) = fun _ => 0 := funext fun a => by fin_cases a <;> rfl
theorem zeros1_1 : (![0] : Fin 1 → Nat) = fun _ => 0 := funext fun a => by fin_cases a; rfl

-- The output block after the body: its one whole-block store over the whole-block loads of the input blocks.
def out1_7 (x0 : Vec F S6400x128 .f32) (x1 x2 : Vec F S1x128 .f32) (x3 x4 : Vec F S128 .f32) (x5 : Vec F S128x128 .f32) (x6 : Vec F S128 .f32) : Vec F S6400x128 .f32 :=
  View.canon [⟨r1_0, k1_pay1 (View.ld x0 r1_0) (View.ld x3 r1_2) (View.ld x1 r1_1) (View.ld x2 r1_1) (View.ld x4 r1_2) (View.ld x5 r1_3) (View.ld x6 r1_2)⟩]

-- Loads and the store are of whole blocks, so the output block is the payload of the input blocks themselves.
theorem out1_7_eq (x0 : Vec F S6400x128 .f32) (x1 : Vec F S1x128 .f32) (x2 : Vec F S1x128 .f32) (x3 : Vec F S128 .f32)
    (x4 : Vec F S128 .f32) (x5 : Vec F S128x128 .f32) (x6 : Vec F S128 .f32) :
    out1_7 x0 x1 x2 x3 x4 x5 x6 = k1_pay1 x0 x3 x1 x2 x4 x5 x6 := by
  simp only [out1_7, View.canon_unit_zero (S := S6400x128) zeros1_2, View.ld_unit_zero (S := S6400x128) zeros1_2,
    View.ld_unit_zero (S := S1x128) zeros1_2, View.ld_unit_zero (S := S128) zeros1_1, View.ld_unit_zero (S := S128x128) zeros1_2]

set_option maxHeartbeats 1000000 in
theorem sound_kernel1 (c : Dev nD) (E : Set ℕ) (i : grid1.Coords)
    (arg1 : Memref sig .tc .vmem S6400x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S128x128 .f32) (harg6 : arg6.IsWhole)
    (arg7 : Memref sig .tc .vmem S128 .f32) (harg7 : arg7.IsWhole) (arg8 : Memref sig .tc .vmem S6400x128 .f32) (harg8 : arg8.IsWhole)
    (x0 : Vec F S6400x128 .f32) (x1 x2 : Vec F S1x128 .f32) (x3 x4 : Vec F S128 .f32) (x5 : Vec F S128x128 .f32) (x6 : Vec F S128 .f32)
    (K : PUnit → sProp (MT nD τ sig Unit (Elt F) ℕ (UR sig nD τ) ℕ)) :
    iprop(owns c arg1 fullShare x0 ∗ owns c arg2 fullShare x1 ∗ owns c arg3 fullShare x2
        ∗ owns c arg4 fullShare x3 ∗ owns c arg5 fullShare x4 ∗ owns c arg6 fullShare x5
        ∗ owns c arg7 fullShare x6 ∗ (∃ d, owns c arg8 fullShare d)
        ∗ (iprop(owns c arg1 fullShare x0 ∗ owns c arg2 fullShare x1 ∗ owns c arg3 fullShare x2
            ∗ owns c arg4 fullShare x3 ∗ owns c arg5 fullShare x4 ∗ owns c arg6 fullShare x5
            ∗ owns c arg7 fullShare x6 ∗ owns c arg8 fullShare (out1_7 x0 x1 x2 x3 x4 x5 x6)) -∗ K ⟨⟩))
      ⊢ wp frame (wpE (defs₀ (F := F)) Variants.none c none) E
          (cc1__k1b_kernel i arg1 harg1 arg2 harg2 arg3 harg3 arg4 harg4 arg5 harg5 arg6 harg6 arg7 harg7 arg8 harg8) K := by
  simp only [cc1__k1b_kernel_eq_skeleton]; unfold cc1__k1b_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · sl_close
  isplitl [H1]; · sl_close
  isplitl [H2]; · sl_close
  isplitl [H3]; · sl_close
  isplitl [H4]; · sl_close
  isplitl [H5]; · sl_close
  isplitl [H6]; · sl_close
  iexists _; isplitr; swap; · iexact H7
  ipureintro
  exact View.read_writes_eq_canon _ _ _ fun y => ⟨_, List.mem_singleton_self _,
    View.mem_set_unit_zero (S := S6400x128) zeros1_2 inb_S6400x128_S6400x128_0_0 y⟩

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := rfl

theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by
  dsimp only [dat1]

-- The body leaves every input block as it found it.
theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
      ∧ (∀ d, (dat1 V c).before 3 t d = iblk1 V c 3 t) ∧ (∀ d, (dat1 V c).before 4 t d = iblk1 V c 4 t) ∧ (∀ d, (dat1 V c).before 5 t d = iblk1 V c 5 t)
      ∧ (∀ d, (dat1 V c).before 6 t d = iblk1 V c 6 t) := by
  refine ⟨?_, ?_, ?_, ?_, ?_, ?_, ?_⟩ <;> exact fun d =>
    ((dat1 V c).before_in_eq_fetched _ rfl (fun _ => rfl) (fun _ _ _ => rfl) (fun _ => rfl) t d).trans rfl

-- The body's triple, applied at the inputs' blocks; everything else passes through unchanged.
theorem body_obligation1 (c : Dev nD) : BodyObligation (dat1 (F := F) V c) (defs₀ (F := F)) Variants.none () Set.univ := fun t => by
  rw [bigSep_W1, bigSep_W1]
  show _ ⊢ wp _ _ _ (bodyAt1 t) _
  simp only [before1 V c t]
  dsimp only [dat1, Dat.owesAt]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  isplitl [HΦ]; · iexact HΦ
  isplitl [Ho]; · iexact Ho
  iexact H

end

end Cert.Kernel.Hand

end
-- ==== Proof.K.Reg2.lean ====
import proofs.«128199_j65335042507073_1_alg».proof.Proof.Gen.Kernel.Launch
import proofs.«128199_j65335042507073_1_alg».proof.Proof.Gen.Kernel.Skeleton
import proofs.«128199_j65335042507073_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem zero2_2 : (![0, 0] : Fin 2 → Nat) = fun _ => 0 := funext fun a => by fin_cases a <;> rfl
private theorem zero2_1 : (![0] : Fin 1 → Nat) = fun _ => 0 := funext fun a => by fin_cases a <;> rfl

private theorem read_writes_unit_zero {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons.mpr (Or.inl rfl), View.mem_set_unit_zero h inb y⟩),
    View.canon_cons_unit_zero h inb]

abbrev cond2 (i : grid2.Coords) : Prop :=
  (Scalar.cmpi .ne (Scalar.extui (Scalar.cmpi .eq (BitVec.ofNat 32 (i 0).val) 0#32)) 0#32) = 1#1

theorem hcond2 : ∀ t : Fin cfg2.N, cond2 (grid2.coords t) ↔ t.val = 0 :=
  (by decide +kernel : ∀ t : Fin grid2.N, cond2 (grid2.coords t) ↔ t.val = 0)

set_option maxHeartbeats 1000000 in
-- One pass of the body from seeds `b0 b1`: the zero vectors at the first point, the carried accumulators afterwards.
theorem kernelRun2 (c : Dev nD) (E : Set ℕ) (i : grid2.Coords)
    (arg1 : Memref sig .tc .vmem S5000x64 .f32) (harg1 : arg1.IsWhole) (arg2 : Memref sig .tc .vmem S5000x128 .f32) (harg2 : arg2.IsWhole)
    (arg3 : Memref sig .tc .vmem S192x128 .f32) (harg3 : arg3.IsWhole) (arg4 : Memref sig .tc .vmem S128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (x0 : Vec F S5000x64 .f32) (x1 : Vec F S5000x128 .f32) (x2 : Vec F S192x128 .f32) (x3 : Vec F S128 .f32)
    (a0 a1 b0 b1 : Vec F S1x128 .f32)
    (hb : cond2 i ∧ b0 = k2_pay1 ∧ b1 = k2_pay2 ∨ ¬cond2 i ∧ b0 = a0 ∧ b1 = a1) (K : PUnit → sProp 𝕄) :
    iprop(owns c.tc arg1 fullShare x0 ∗ owns c.tc arg2 fullShare x1
        ∗ owns c.tc arg3 fullShare x2 ∗ owns c.tc arg4 fullShare x3
        ∗ (∃ d, owns c.tc arg5 fullShare d) ∗ (∃ d, owns c.tc arg6 fullShare d)
        ∗ (∃ d, owns c.tc arg7 fullShare d)
        ∗ owns c.tc arg8 fullShare a0 ∗ owns c.tc arg9 fullShare a1
        ∗ (iprop(owns c.tc arg1 fullShare x0 ∗ owns c.tc arg2 fullShare x1
            ∗ owns c.tc arg3 fullShare x2 ∗ owns c.tc arg4 fullShare x3
            ∗ owns c.tc arg5 fullShare (k2_pay3 x0 x1 x2 x3)
            ∗ owns c.tc arg6 fullShare (k2_pay4 x0 x1 x2 x3 b0)
            ∗ owns c.tc arg7 fullShare (k2_pay5 x0 x1 x2 x3 b1)
            ∗ owns c.tc arg8 fullShare (k2_pay4 x0 x1 x2 x3 b0)
            ∗ owns c.tc arg9 fullShare (k2_pay5 x0 x1 x2 x3 b1)) -∗ K ⟨⟩))
      ⊢ wp frame (wpE (defs₀ (F := F)) Variants.none c none) E
          (cc2__k2a_kernel i arg1 harg1 arg2 harg2 arg3 harg3 arg4 harg4 arg5 harg5 arg6 harg6 arg7 harg7 arg8 harg8 arg9 harg9) K := by
  simp only [cc2__k2a_kernel_eq_skeleton]; unfold cc2__k2a_kernel_skel
  simp only [k2_part1_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1 hf2 hf3 hf4 hf8 hf9
  rcases hb with ⟨hc, rfl, rfl⟩ | ⟨hc, rfl, rfl⟩
  all_goals
    sl_exec (disch := exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]; iexists _; isplitr; swap; iexact H5; rotate_left
    isplitl [H6]; iexists _; isplitr; swap; iexact H6; rotate_left
    isplitl [H7]; iexists _; isplitr; swap; iexact H7; rotate_left
    isplitl [H8]; iexists _; isplitr; swap; iexact H8; rotate_left
    iexists _; isplitr; swap; iexact H9
    all_goals
      ipureintro; sl_unfold_words
      simp only [read_writes_unit_zero (S := S5000x128) _ _ zero2_2 inb_S5000x128_S5000x128_0_0, read_writes_unit_zero (S := S1x128) _ _ zero2_2 inb_S1x128_S1x128_0_0, View.readCov_cons_toLoadRect, View.readAt_eq_ld, View.ld_unit_zero (S := S5000x64) zero2_2 inb_S5000x64_S5000x64_0_0, View.ld_unit_zero (S := S5000x128) zero2_2 inb_S5000x128_S5000x128_0_0, View.ld_unit_zero (S := S192x128) zero2_2 inb_S192x128_S192x128_0_0, View.ld_unit_zero (S := S128) zero2_1 inb_S128_S128_0, View.ld_unit_zero (S := S1x128) zero2_2 inb_S1x128_S1x128_0_0]

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S1x128 .f32 × Vec F S1x128 .f32
  | 0, hn => (k2_pay4 (iblk2 V c 0 ⟨0, hn⟩) (iblk2 V c 1 ⟨0, hn⟩) (iblk2 V c 2 ⟨0, hn⟩) (iblk2 V c 3 ⟨0, hn⟩) k2_pay1,
      k2_pay5 (iblk2 V c 0 ⟨0, hn⟩) (iblk2 V c 1 ⟨0, hn⟩) (iblk2 V c 2 ⟨0, hn⟩) (iblk2 V c 3 ⟨0, hn⟩) k2_pay2)
  | n + 1, hn => (k2_pay4 (iblk2 V c 0 ⟨n + 1, hn⟩) (iblk2 V c 1 ⟨n + 1, hn⟩) (iblk2 V c 2 ⟨n + 1, hn⟩) (iblk2 V c 3 ⟨n + 1, hn⟩) (acc2 c n (Nat.lt_of_succ_lt hn)).1,
      k2_pay5 (iblk2 V c 0 ⟨n + 1, hn⟩) (iblk2 V c 1 ⟨n + 1, hn⟩) (iblk2 V c 2 ⟨n + 1, hn⟩) (iblk2 V c 3 ⟨n + 1, hn⟩) (acc2 c n (Nat.lt_of_succ_lt hn)).2)

abbrev scM2_0 : Memref sig .tc .vmem S1x128 .f32 := Memref.whole cc2_scratch0
abbrev scM2_1 : Memref sig .tc .vmem S1x128 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns c.tc scM2_0 fullShare d) ∗ (∃ d, owns c.tc scM2_1 fullShare d)) ∗ rest2 c) ∗ (∃ r, prngReg c r)) := by
  unfold Pipeline.ΦA; rw [scopedRest2_split]; simp only [scM2_0, scM2_1, owns_whole]; try rfl

def PhiS2 (c : Dev nD) : (n : ℕ) → n ≤ cfg2.N → sProp 𝕄
  | 0, _ => Pipeline.ΦA spec2 c
  | n + 1, hn => iprop(iprop(iprop(owns c.tc scM2_0 fullShare ((acc2 V c n hn).1) ∗ owns c.tc scM2_1 fullShare ((acc2 V c n hn).2)) ∗ rest2 c) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay3 (iblk2 V c 0 t) (iblk2 V c 1 t) (iblk2 V c 2 t) (iblk2 V c 3 t)
    | ⟨5, _⟩ => (acc2 V c t.val t.isLt).1
    | ⟨6, _⟩ => (acc2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = (acc2 V c t.val t.isLt).1 := by dsimp only [dat2]
theorem after2_6 (c : Dev nD) (t : Fin cfg2.N) : (dat2 V c).after 6 t = (acc2 V c t.val t.isLt).2 := by dsimp only [dat2]

theorem after2_4_eq (c : Dev nD) (t : Fin cfg2.N) :
    (dat2 V c).after 4 t = k2_pay3 (iblk2 V c 0 t) (iblk2 V c 1 t) (iblk2 V c 2 t) (iblk2 V c 3 t) := by dsimp only [dat2]

-- By cases on the point's number, on which both `acc2` and the invariant recurse.
theorem step2_first (c : Dev nD) (t : Fin cfg2.N) (hz : t.val = 0) :
    acc2 V c t.val t.isLt = (k2_pay4 (iblk2 V c 0 t) (iblk2 V c 1 t) (iblk2 V c 2 t) (iblk2 V c 3 t) k2_pay1, k2_pay5 (iblk2 V c 0 t) (iblk2 V c 1 t) (iblk2 V c 2 t) (iblk2 V c 3 t) k2_pay2)
      ∧ (dat2 V c).Φ t.castSucc = Pipeline.ΦA spec2 c := by
  obtain ⟨n, hn⟩ := t
  cases n with
  | zero => exact ⟨rfl, rfl⟩
  | succ n => exact absurd hz (Nat.succ_ne_zero n)

theorem step2_later (c : Dev nD) (t : Fin cfg2.N) (hp : t.val - 1 < cfg2.N) (hz : t.val ≠ 0) :
    acc2 V c t.val t.isLt = (k2_pay4 (iblk2 V c 0 t) (iblk2 V c 1 t) (iblk2 V c 2 t) (iblk2 V c 3 t) (acc2 V c (t.val - 1) hp).1, k2_pay5 (iblk2 V c 0 t) (iblk2 V c 1 t) (iblk2 V c 2 t) (iblk2 V c 3 t) (acc2 V c (t.val - 1) hp).2)
      ∧ (dat2 V c).Φ t.castSucc = iprop(iprop(iprop(owns c.tc scM2_0 fullShare (acc2 V c (t.val - 1) hp).1
          ∗ owns c.tc scM2_1 fullShare (acc2 V c (t.val - 1) hp).2) ∗ rest2 c) ∗ (∃ r, prngReg c r)) := by
  obtain ⟨n, hn⟩ := t
  cases n with
  | zero => exact absurd rfl hz
  | succ n => exact ⟨rfl, rfl⟩

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns c.tc (st2_0 t) fullShare ((dat2 V c).before 0 t d))
    ∗ (∃ d, owns c.tc (st2_1 t) fullShare ((dat2 V c).before 1 t d))
    ∗ (∃ d, owns c.tc (st2_2 t) fullShare ((dat2 V c).before 2 t d))
    ∗ (∃ d, owns c.tc (st2_3 t) fullShare ((dat2 V c).before 3 t d))
    ∗ (∃ d, owns c.tc (st2_4 t) fullShare ((dat2 V c).before 4 t d))
    ∗ (∃ d, owns c.tc (st2_5 t) fullShare ((dat2 V c).before 5 t d))
    ∗ (∃ d, owns c.tc (st2_6 t) fullShare ((dat2 V c).before 6 t d)))

def bodyPost2 (c : Dev nD) (t : Fin cfg2.N) : sProp 𝕄 :=
  iprop((dat2 V c).Φ t.succ ∗ (dat2 V c).owesAt () t.succ
    ∗ owns c.tc (st2_0 t) fullShare ((dat2 V c).after 0 t)
    ∗ owns c.tc (st2_1 t) fullShare ((dat2 V c).after 1 t)
    ∗ owns c.tc (st2_2 t) fullShare ((dat2 V c).after 2 t)
    ∗ owns c.tc (st2_3 t) fullShare ((dat2 V c).after 3 t)
    ∗ owns c.tc (st2_4 t) fullShare ((dat2 V c).after 4 t)
    ∗ owns c.tc (st2_5 t) fullShare ((dat2 V c).after 5 t)
    ∗ owns c.tc (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2]
  rw [after2_4_eq, after2_5, after2_6]
  by_cases hz : t.val = 0
  on_goal 1 =>
    have h := step2_first V c t hz
    rw [h.2, PhiA2_eq, h.1]
    iintro ⟨⟨⟨⟨⟨%e0, HS0⟩, ⟨%e1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun2 c Set.univ (grid2.coords t) _ _ _ _ _ _ _ _ _ _ _ _ _ _ _ _ _ _
      (iblk2 V c 0 t) (iblk2 V c 1 t) (iblk2 V c 2 t) (iblk2 V c 3 t) e0 e1 _ _ (.inl ⟨(hcond2 t).mpr hz, rfl, rfl⟩) _)
  on_goal 2 =>
    have h := step2_later V c t (Nat.lt_of_le_of_lt (Nat.sub_le _ _) t.isLt) hz
    rw [h.2, h.1]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun2 c Set.univ (grid2.coords t) _ _ _ _ _ _ _ _ _ _ _ _ _ _ _ _ _ _
      (iblk2 V c 0 t) (iblk2 V c 1 t) (iblk2 V c 2 t) (iblk2 V c 3 t) _ _ _ _ (.inr ⟨fun h => hz ((hcond2 t).mp h), rfl, rfl⟩) _)
  all_goals
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    iframe
    isplitl [H0]; · iexact H0
    isplitl [H1]; · iexact H1
    isplitl [H2]; · iexact H2
    iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := Idealize.SL.BI.Entails.refl _

theorem hout2 (c : Dev nD) : (dat2 V c).Φ (Fin.last cfg2.N) ⊢ (Pipeline.ΦA spec2 c : sProp 𝕄) := by
  rw [show (dat2 V c).Φ (Fin.last cfg2.N) = PhiS2 V c (9 + 1) (by decide) from rfl, PhiS2, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end

end Cert.Kernel.Hand

end
-- ==== Proof.K.Reg3.lean ====
import proofs.«128199_j65335042507073_1_alg».proof.Proof.Gen.Kernel.Launch
import proofs.«128199_j65335042507073_1_alg».proof.Proof.Gen.Kernel.Skeleton
import proofs.«128199_j65335042507073_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

section
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0
abbrev r3_3 : Rect S128 := Rect.unit (s := S128) ![0] S128.size inb_S128_S128_0
abbrev r3_5 : Rect S128x64 := Rect.unit (s := S128x64) ![0, 0] S128x64.size inb_S128x64_S128x64_0_0
abbrev r3_6 : Rect S64 := Rect.unit (s := S64) ![0] S64.size inb_S64_S64_0
abbrev r3_7 : Rect S5000x64 := Rect.unit (s := S5000x64) ![0, 0] S5000x64.size inb_S5000x64_S5000x64_0_0

theorem zero3_2 : (![0, 0] : Fin 2 → ℕ) = fun _ => 0 := funext fun a => by fin_cases a <;> rfl
theorem zero3_1 : (![0] : Fin 1 → ℕ) = fun _ => 0 := funext fun a => by fin_cases a <;> rfl

-- The output block after the body: its one whole-block store over the whole-block loads of the input blocks.
def out3_7 (x0 : Vec F S5000x128 .f32) (x1 x2 : Vec F S1x128 .f32) (x3 x4 : Vec F S128 .f32) (x5 : Vec F S128x64 .f32) (x6 : Vec F S64 .f32) : Vec F S5000x64 .f32 :=
  View.canon [⟨r3_7, k3_pay1 (View.ld x0 r3_0) (View.ld x3 r3_3) (View.ld x1 r3_1) (View.ld x2 r3_1) (View.ld x4 r3_3) (View.ld x5 r3_5) (View.ld x6 r3_6)⟩]

-- Loads and the store are of whole blocks, so the output block is the payload of the input blocks themselves.
theorem out3_7_eq (x0 : Vec F S5000x128 .f32) (x1 : Vec F S1x128 .f32) (x2 : Vec F S1x128 .f32) (x3 : Vec F S128 .f32)
    (x4 : Vec F S128 .f32) (x5 : Vec F S128x64 .f32) (x6 : Vec F S64 .f32) :
    out3_7 x0 x1 x2 x3 x4 x5 x6 = k3_pay1 x0 x3 x1 x2 x4 x5 x6 := by
  simp only [out3_7, View.canon_unit_zero (S := S5000x64) zero3_2, View.ld_unit_zero (S := S5000x128) zero3_2,
    View.ld_unit_zero (S := S1x128) zero3_2, View.ld_unit_zero (S := S128) zero3_1, View.ld_unit_zero (S := S128x64) zero3_2, View.ld_unit_zero (S := S64) zero3_1]

set_option maxHeartbeats 1000000 in
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S128x64 .f32) (harg6 : arg6.IsWhole)
    (arg7 : Memref sig .tc .vmem S64 .f32) (harg7 : arg7.IsWhole) (arg8 : Memref sig .tc .vmem S5000x64 .f32) (harg8 : arg8.IsWhole)
    (x0 : Vec F S5000x128 .f32) (x1 x2 : Vec F S1x128 .f32) (x3 x4 : Vec F S128 .f32) (x5 : Vec F S128x64 .f32) (x6 : Vec F S64 .f32)
    (K : PUnit → sProp (MT nD τ sig Unit (Elt F) ℕ (UR sig nD τ) ℕ)) :
    iprop(owns c arg1 fullShare x0 ∗ owns c arg2 fullShare x1 ∗ owns c arg3 fullShare x2
        ∗ owns c arg4 fullShare x3 ∗ owns c arg5 fullShare x4 ∗ owns c arg6 fullShare x5
        ∗ owns c arg7 fullShare x6 ∗ (∃ d, owns c arg8 fullShare d)
        ∗ (iprop(owns c arg1 fullShare x0 ∗ owns c arg2 fullShare x1 ∗ owns c arg3 fullShare x2
            ∗ owns c arg4 fullShare x3 ∗ owns c arg5 fullShare x4 ∗ owns c arg6 fullShare x5
            ∗ owns c arg7 fullShare x6 ∗ owns c arg8 fullShare (out3_7 x0 x1 x2 x3 x4 x5 x6)) -∗ K ⟨⟩))
      ⊢ wp frame (wpE (defs₀ (F := F)) Variants.none c none) E
          (cc3__k2b_kernel i arg1 harg1 arg2 harg2 arg3 harg3 arg4 harg4 arg5 harg5 arg6 harg6 arg7 harg7 arg8 harg8) K := by
  simp only [cc3__k2b_kernel_eq_skeleton]; unfold cc3__k2b_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · sl_close
  isplitl [H1]; · sl_close
  isplitl [H2]; · sl_close
  isplitl [H3]; · sl_close
  isplitl [H4]; · sl_close
  isplitl [H5]; · sl_close
  isplitl [H6]; · sl_close
  iexists _; isplitr; swap; · iexact H7
  ipureintro
  exact View.read_writes_eq_canon _ _ _ fun y => ⟨_, List.mem_singleton_self _,
    View.mem_set_unit_zero (S := S5000x64) zero3_2 inb_S5000x64_S5000x64_0_0 y⟩

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := rfl

theorem after3_7 (c : Dev nD) (t : Fin cfg3.N) : (dat3 V c).after 7 t
    = out3_7 (iblk3 V c 0 t) (iblk3 V c 1 t) (iblk3 V c 2 t) (iblk3 V c 3 t) (iblk3 V c 4 t) (iblk3 V c 5 t) (iblk3 V c 6 t) := by
  dsimp only [dat3]

-- The body leaves every input block as it found it.
theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
      ∧ (∀ d, (dat3 V c).before 3 t d = iblk3 V c 3 t) ∧ (∀ d, (dat3 V c).before 4 t d = iblk3 V c 4 t) ∧ (∀ d, (dat3 V c).before 5 t d = iblk3 V c 5 t)
      ∧ (∀ d, (dat3 V c).before 6 t d = iblk3 V c 6 t) := by
  refine ⟨?_, ?_, ?_, ?_, ?_, ?_, ?_⟩ <;> exact fun d =>
    ((dat3 V c).before_in_eq_fetched _ rfl (fun _ => rfl) (fun _ _ _ => rfl) (fun _ => rfl) t d).trans rfl

-- The body's triple, applied at the inputs' blocks; everything else passes through unchanged.
theorem body_obligation3 (c : Dev nD) : BodyObligation (dat3 (F := F) V c) (defs₀ (F := F)) Variants.none () Set.univ := fun t => by
  rw [bigSep_W3, bigSep_W3]
  show _ ⊢ wp _ _ _ (bodyAt3 t) _
  simp only [before3 V c t]
  dsimp only [dat3, Dat.owesAt]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  isplitl [HΦ]; · iexact HΦ
  isplitl [Ho]; · iexact Ho
  iexact H

end

end Cert.Kernel.Hand

end
-- ==== Proof.K.Run.lean ====
import proofs.«128199_j65335042507073_1_alg».proof.Proof.Gen.Kernel.Launch
import proofs.«128199_j65335042507073_1_alg».proof.Proof.Gen.Kernel.Skeleton
import proofs.«128199_j65335042507073_1_alg».proof.Proof.Gen.Kernel.Points
import proofs.«128199_j65335042507073_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128199_j65335042507073_1_alg».proof.Proof.K.Reg0
import proofs.«128199_j65335042507073_1_alg».proof.Proof.K.Reg1
import proofs.«128199_j65335042507073_1_alg».proof.Proof.K.Reg2
import proofs.«128199_j65335042507073_1_alg».proof.Proof.K.Reg3

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w

-- Why: `arrAt` is constant on an input window (`arrAt_in`), every output window's array is in `l`, and `withArrays` changes nothing else.
theorem keep {cfg : Cfg sig Λ₀} {c : Dev nD} (d : Dat τ (Elt F) Unit ℕ (UR sig nD τ) ℕ cfg c)
    (hinj : Function.Injective (Pipeline.arrRef cfg.spec)) (V : Valuation τ sig (Elt F))
    (hA : ∀ w, d.A w = V (Proc.devRef .tc (Pipeline.arrRef cfg.spec w))) (l : List (Ref sig .tc))
    (hl : ∀ w, (cfg.win w).isOut = true → Pipeline.arrRef cfg.spec w ∈ l) (b : Ref sig .tc) (h : b ∉ l) :
    Pipeline.withArrays cfg.spec c V (fun w => d.arrAt w cfg.N) (Proc.devRef .tc b) = V (Proc.devRef .tc b) := by
  by_cases hb : ∃ w, Pipeline.arrRef cfg.spec w = b
  · obtain ⟨w, rfl⟩ := hb
    rw [Pipeline.withArrays_arr _ hinj]
    cases hw : (cfg.win w).isOut
    · exact (d.arrAt_in w hw _).trans (hA w)
    · exact absurd (hl w hw) h
  · exact Pipeline.withArrays_of_ne _ c _ _ b fun w e => hb ⟨w, e⟩

theorem W1_of (c : Dev nD) (b : Ref sig .tc) (h : b ∉ hostOps0_W) :
    W1 m ρ c (Proc.devRef .tc b) = W0 m ρ c (Proc.devRef .tc b) :=
  StableHlo.after_of_writes_sub hostOps0 _ hostOps0_writes h
theorem W2_of (c : Dev nD) (b : Ref sig .tc) (h : b ∉ ([main_v11_0, main_v11_1, main_v11_2] : List (Ref sig .tc))) :
    W2 m ρ c (Proc.devRef .tc b) = W1 m ρ c (Proc.devRef .tc b) :=
  keep (dat0 (V1 m ρ) c) launch0.win.arr_inj (W1 m ρ c) (A_eq0 _ c) _ (by decide) b h
theorem W3_of (c : Dev nD) (b : Ref sig .tc) (h : b ∉ hostOps1_W) :
    W3 m ρ c (Proc.devRef .tc b) = W2 m ρ c (Proc.devRef .tc b) :=
  StableHlo.after_of_writes_sub hostOps1 _ hostOps1_writes h
theorem W4_of (c : Dev nD) (b : Ref sig .tc) (h : b ∉ ([main_v18] : List (Ref sig .tc))) :
    W4 m ρ c (Proc.devRef .tc b) = W3 m ρ c (Proc.devRef .tc b) :=
  keep (dat1 (V3 m ρ) c) launch1.win.arr_inj (W3 m ρ c) (A_eq1 _ c) _ (by decide) b h
theorem W5_of (c : Dev nD) (b : Ref sig .tc) (h : b ∉ hostOps2_W) :
    W5 m ρ c (Proc.devRef .tc b) = W4 m ρ c (Proc.devRef .tc b) :=
  StableHlo.after_of_writes_sub hostOps2 _ hostOps2_writes h
theorem W6_of (c : Dev nD) (b : Ref sig .tc) (h : b ∉ ([main_v22_0, main_v22_1, main_v22_2] : List (Ref sig .tc))) :
    W6 m ρ c (Proc.devRef .tc b) = W5 m ρ c (Proc.devRef .tc b) :=
  keep (dat2 (V5 m ρ) c) launch2.win.arr_inj (W5 m ρ c) (A_eq2 _ c) _ (by decide) b h
theorem W7_of (c : Dev nD) (b : Ref sig .tc) (h : b ∉ hostOps3_W) :
    W7 m ρ c (Proc.devRef .tc b) = W6 m ρ c (Proc.devRef .tc b) :=
  StableHlo.after_of_writes_sub hostOps3 _ hostOps3_writes h
theorem W8_of (c : Dev nD) (b : Ref sig .tc) (h : b ∉ ([main_v29] : List (Ref sig .tc))) :
    W8 m ρ c (Proc.devRef .tc b) = W7 m ρ c (Proc.devRef .tc b) :=
  keep (dat3 (V7 m ρ) c) launch3.win.arr_inj (W7 m ρ c) (A_eq3 _ c) _ (by decide) b h

abbrev argRefs : List (Ref sig .tc) := [main_arg0, main_arg1, main_arg2, main_arg3, main_arg4, main_arg5, main_arg6, main_arg7, main_arg8,
  main_arg9, main_arg10, main_arg11, main_arg12, main_arg13, main_arg14, main_arg15, main_arg16]

theorem args_unwritten : ∀ b ∈ argRefs, b ∉ hostOps0_W ∧ b ∉ ([main_v11_0, main_v11_1, main_v11_2] : List (Ref sig .tc)) ∧ b ∉ hostOps1_W
    ∧ b ∉ ([main_v18] : List (Ref sig .tc)) ∧ b ∉ hostOps2_W ∧ b ∉ ([main_v22_0, main_v22_1, main_v22_2] : List (Ref sig .tc)) ∧ b ∉ hostOps3_W
    ∧ b ∉ ([main_v29] : List (Ref sig .tc)) := by decide

theorem W1_arg (c : Dev nD) (b : Ref sig .tc) (hb : b ∈ argRefs) : W1 m ρ c (Proc.devRef .tc b) = m ((c : Thread nD τ).loc b) :=
  W1_of m ρ c b (args_unwritten b hb).1
theorem W3_arg (c : Dev nD) (b : Ref sig .tc) (hb : b ∈ argRefs) : W3 m ρ c (Proc.devRef .tc b) = m ((c : Thread nD τ).loc b) :=
  (W3_of m ρ c b (args_unwritten b hb).2.2.1).trans <| (W2_of m ρ c b (args_unwritten b hb).2.1).trans (W1_arg m ρ c b hb)
theorem W5_arg (c : Dev nD) (b : Ref sig .tc) (hb : b ∈ argRefs) : W5 m ρ c (Proc.devRef .tc b) = m ((c : Thread nD τ).loc b) :=
  (W5_of m ρ c b (args_unwritten b hb).2.2.2.2.1).trans <| (W4_of m ρ c b (args_unwritten b hb).2.2.2.1).trans (W3_arg m ρ c b hb)
theorem W7_arg (c : Dev nD) (b : Ref sig .tc) (hb : b ∈ argRefs) : W7 m ρ c (Proc.devRef .tc b) = m ((c : Thread nD τ).loc b) :=
  (W7_of m ρ c b (args_unwritten b hb).2.2.2.2.2.2.1).trans <| (W6_of m ρ c b (args_unwritten b hb).2.2.2.2.2.1).trans (W5_arg m ρ c b hb)
theorem W8_arg (c : Dev nD) (b : Ref sig .tc) (hb : b ∈ argRefs) : W8 m ρ c (Proc.devRef .tc b) = m ((c : Thread nD τ).loc b) :=
  (W8_of m ρ c b (args_unwritten b hb).2.2.2.2.2.2.2).trans (W7_arg m ρ c b hb)

def pdats : (p : Fin 4) → (c : Dev nD) → Dat τ (Elt F) Unit ℕ (UR sig nD τ) ℕ (Pipeline.pin (pcfgs (F := F)) adm p) c
  | ⟨0, _⟩ => dat0 (V1 m ρ)
  | ⟨1, _⟩ => dat1 (V3 m ρ)
  | ⟨2, _⟩ => dat2 (V5 m ρ)
  | ⟨3, _⟩ => dat3 (V7 m ρ)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

-- One region as an item of the run: from the contents `Wi` to `Wi` with the region's arrays at their final contents.
set_option backward.isDefEq.respectTransparency.types false in
def reg (p : Fin 4) (lf : Pipeline.LaunchFacts (nD := nD) (τ := τ) cfgs p) (Wi : Dev nD → Valuation τ sig (Elt F))
    (hb : ∀ c, BodyObligation (pdats m ρ p c) (defs₀ (F := F)) Variants.none () Set.univ)
    (hA : ∀ c w, (pdats m ρ p c).A w = Wi c (Proc.devRef .tc (Pipeline.arrRef (cfgs p).spec w)))
    (hi : ∀ c, (Pipeline.ΦA (cfgs p).spec c : sProp 𝕄) ⊢ (pdats m ρ p c).Φ 0 := by exact fun _ => .rfl)
    (ho : ∀ c, (pdats m ρ p c).Φ (Fin.last (cfgs p).N) ⊢ (Pipeline.ΦA (cfgs p).spec c : sProp 𝕄) := by exact fun _ => .rfl)
    (hq : ∀ c w, (pdats m ρ p c).q w = fullShare := by exact fun _ _ => rfl) (hw : ∀ c t, (pdats m ρ p c).owed t = 0 := by exact fun _ _ => rfl)
    (hr : ∀ c t x, x ∈ (pdats m ρ p c).recorded t := by exact fun _ _ _ => trivial) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hw
  pre c := iprop(StableHlo.held (c : Thread nD τ) (Pipeline.ucRefs τ sig) (Wi c) ∗ R c)
  post c := iprop(StableHlo.held (c : Thread nD τ) (Pipeline.ucRefs τ sig)
    (Pipeline.withArrays (cfgs p).spec c (Wi c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [hw]
      icases HO with ⟨%W, HO⟩; iexists W; isplitr; · ipureintro; exact fun x _ => Or.inl (hr c 0 x)
      iexact HO
    isplitl [Hp]; · iexact Hp
    iexact Hrest
  hin c := by
    refine .trans ?_ (hi c)
    unfold Pipeline.ΦA
    iintro ⟨Hp, -, Hr⟩
    isplitl [Hr]; · iexact Hr
    iexact Hp
  hout c := by
    rw [Pipeline.ownSems0_none]
    refine (ho c).trans ?_
    unfold Pipeline.ΦA
    iintro ⟨Hr, Hp⟩
    isplitl [Hp]; · iexact Hp
    isplitr; · iempintro
    iexact Hr
  hexit c := by
    have hF (w) := (Pipeline.withArrays_arr (cfgs p).spec lf.win.arr_inj c (Wi c) (fun w => (pdats m ρ p c).arrAt w (cfgs p).N) w).symm
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => Wi c b)
      (fun b => Pipeline.withArrays (cfgs p).spec c (Wi c) (fun w => (pdats m ρ p c).arrAt w (cfgs p).N) b) ((pdats m ρ p c).arrAt · (cfgs p).N) hF
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [hw]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg m ρ 0 launch0 (W1 m ρ) (body_obligation0 _) (A_eq0 _) (hin0 _) (hout0 _)),
    .host (hseg hostOps1 hostOps1_sub hostOps1_fresh (W2 m ρ)),
    .region (reg m ρ 1 launch1 (W3 m ρ) (body_obligation1 _) (A_eq1 _)),
    .host (hseg hostOps2 hostOps2_sub hostOps2_fresh (W4 m ρ)),
    .region (reg m ρ 2 launch2 (W5 m ρ) (body_obligation2 _) (A_eq2 _) (hin2 _) (hout2 _)),
    .host (hseg hostOps3 hostOps3_sub hostOps3_fresh (W6 m ρ)),
    .region (reg m ρ 3 launch3 (W7 m ρ) (body_obligation3 _) (A_eq3 _)) ]
theorem main_run (c : Dev nD) : main (F := F) c = Pipeline.Seg.run (segs m ρ) := (main_chain c).trans (by chain_rfl)

theorem mem_uc : ∀ b ∈ main_v29 :: argRefs, Proc.devRef .tc b ∈ Pipeline.ucRefs τ sig := fun b hb =>
  Finset.mem_filter.mpr ⟨StableHlo.devRef_mem_tcRefs b, by revert b; decide⟩

set_option backward.isDefEq.respectTransparency.types false in
theorem run_v29 : θ_run defs (onTc (τ := τ) (main (F := F))) ⟨m, fun _ => 0, ρ⟩ (fun r => ∀ c : Dev nD,
      r.2.mem ((c.tc : Thread nD τ).loc main_v29) = W8 m ρ c (Proc.devRef .tc main_v29)
      ∧ argRefs.Forall fun b => r.2.mem ((c.tc : Thread nD τ).loc b) = m ((c.tc : Thread nD τ).loc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W8 m ρ c) ∗ ∃ r, prngReg c r))
    (hch := ⟨fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => ⟨h c _ (mem_uc _ (.head _)),
      List.forall_iff_forall_mem.mpr fun b hb => (h c _ (mem_uc b (.tail _ hb))).trans (W8_arg m ρ c b hb)⟩)

theorem frame : θ_run defs (onTc (τ := τ) (main (F := F))) ⟨m, fun _ => 0, ρ⟩ (fun r => ∀ c : Dev nD,
      argRefs.Forall fun b => r.2.mem ((c.tc : Thread nD τ).loc b) = m ((c.tc : Thread nD τ).loc b)) :=
  (θ_run defs _ _).mono (fun r h c => (h c).2) (run_v29 m ρ)

end Cert.Kernel.Hand

end
-- ==== Proof.KI.Reg0.lean ====
import proofs.«128199_j65335042507073_1_alg».proof.Proof.Gen.KernelIdeal.Launch
import proofs.«128199_j65335042507073_1_alg».proof.Proof.Gen.KernelIdeal.Skeleton
import proofs.«128199_j65335042507073_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → Nat) = fun _ => 0 := funext fun a => by fin_cases a <;> rfl
private theorem hz1 : (![0] : Fin 1 → Nat) = fun _ => 0 := funext fun a => by fin_cases a <;> rfl

private theorem readAt_unit {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

private theorem read_writes_cons_unit (S : Shape) {sg : RefSig} {κ : Kind} {sp : Space} {e : EltTy} {Val : EltTy → Type}
    [∀ e, Nonempty (Val e)] {v : View sg κ sp S e} {f : v.ty.Contents Val} {off : Fin S.rank → Nat} (h : off = fun _ => 0)
    {inb : ∀ a, off a + S.size a ≤ S.size a} {w : S.Idx → Val e} {L : List (View.Piece Val S e)} :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

private theorem readCov_cons_unit (S : Shape) {sg : RefSig} {κ : Kind} {sp : Space} {e : EltTy} {Val : EltTy → Type}
    [∀ e, Nonempty (Val e)] {v : View sg κ sp S e} {off : Fin S.rank → Nat} (h : off = fun _ => 0)
    {inb : ∀ a, off a + S.size a ≤ S.size a} {w : S.Idx → Val e} {L : List (View.Piece Val S e)} :
    v.readCov ((⟨Rect.unit off S.size inb, w⟩ : View.Piece Val S e) :: L) (Rect.unit off S.size inb).toLoadRect = w :=
  (View.readCov_eq_canon_ld v _ _ (fun y => ⟨_, List.mem_cons_self, View.mem_set_unit_zero h inb y⟩)).trans
    ((congrArg (fun X => View.ld X (Rect.unit off S.size inb)) (View.canon_cons_unit_zero h inb w L)).trans
      (View.ld_unit_zero h inb w))

section
variable (V : (c : Dev nD) → (b : Ref sig .tc) → Buf (Elt F) ((c : Thread nD τ).loc b))

-- Window `w`'s block at point `t` of the arrays `V`.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0 (i : grid0.Coords) : Prop :=
  (Scalar.cmpi .ne (Scalar.extui (Scalar.cmpi .eq (BitVec.ofNat 32 (i 0).val) 0#32)) 0#32) = 1#1

theorem hcond0 : ∀ t : Fin cfg0.N, cond0 (grid0.coords t) ↔ t.val = 0 := by decide +kernel

section
variable (c : Dev nD) (i : grid0.Coords)
  (arg1 : Memref sig .tc .vmem S6400x64 .f32) (harg1 : arg1.IsWhole) (arg2 : Memref sig .tc .vmem S6400x32 .f32) (harg2 : arg2.IsWhole)
  (arg3 : Memref sig .tc .vmem S96x128 .f32) (harg3 : arg3.IsWhole) (arg4 : Memref sig .tc .vmem S128 .f32) (harg4 : arg4.IsWhole)
  (arg5 : Memref sig .tc .vmem S6400x128 .f32) (harg5 : arg5.IsWhole) (arg6 : Memref sig .tc .vmem S1x128 .f32) (harg6 : arg6.IsWhole)
  (arg7 : Memref sig .tc .vmem S1x128 .f32) (harg7 : arg7.IsWhole) (arg8 : Memref sig .tc .vmem S1x128 .f32) (harg8 : arg8.IsWhole)
  (arg9 : Memref sig .tc .vmem S1x128 .f32) (harg9 : arg9.IsWhole)
  (x0 : Vec F S6400x64 .f32) (x1 : Vec F S6400x32 .f32) (x2 : Vec F S96x128 .f32) (x3 : Vec F S128 .f32) (E : Set ℕ)

-- What the body is handed besides the two running sums and the rest `R`,
def pre0 (R : sProp 𝕄) : sProp 𝕄 :=
  iprop(owns c.tc arg1 fullShare x0 ∗ owns c.tc arg2 fullShare x1 ∗ owns c.tc arg3 fullShare x2 ∗ owns c.tc arg4 fullShare x3
    ∗ (∃ d, owns c.tc arg5 fullShare d) ∗ (∃ d, owns c.tc arg6 fullShare d) ∗ (∃ d, owns c.tc arg7 fullShare d) ∗ R)

-- and what it leaves when the running sums were `a0` and `a1`.
def post0 (a0 a1 : Vec F S1x128 .f32) : sProp 𝕄 :=
  iprop(owns c.tc arg1 fullShare x0 ∗ owns c.tc arg2 fullShare x1 ∗ owns c.tc arg3 fullShare x2 ∗ owns c.tc arg4 fullShare x3
    ∗ owns c.tc arg5 fullShare (k0_pay3 x0 x1 x2 x3)
    ∗ owns c.tc arg6 fullShare (k0_pay4 x0 x1 x2 x3 a0) ∗ owns c.tc arg7 fullShare (k0_pay5 x0 x1 x2 x3 a1)
    ∗ owns c.tc arg8 fullShare (k0_pay4 x0 x1 x2 x3 a0) ∗ owns c.tc arg9 fullShare (k0_pay5 x0 x1 x2 x3 a1))

set_option maxHeartbeats 1000000 in
theorem run0_first (K : PUnit → sProp 𝕄) (hc : cond0 i) :
    pre0 c arg1 arg2 arg3 arg4 arg5 arg6 arg7 x0 x1 x2 x3 iprop((∃ d, owns c.tc arg8 fullShare d) ∗ (∃ d, owns c.tc arg9 fullShare d)
      ∗ (post0 c arg1 arg2 arg3 arg4 arg5 arg6 arg7 arg8 arg9 x0 x1 x2 x3 k0_pay1 k0_pay2 -∗ K ⟨⟩))
    ⊢ wp frame (wpE (defs₀ (F := F)) Variants.none c none) E (cc0__k1a_kernel i arg1 harg1 arg2 harg2 arg3 harg3 arg4 harg4 arg5 harg5 arg6 harg6 arg7 harg7 arg8 harg8 arg9 harg9) K := by
  simp only [cc0__k1a_kernel_eq_skeleton]; unfold cc0__k1a_kernel_skel
  unfold pre0 post0 owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
  subst hf0 hf1 hf2 hf3
  have e0 := readAt_unit arg1.view f0 hz2 inb_S6400x64_S6400x64_0_0
  have e1 := readAt_unit arg2.view f1 hz2 inb_S6400x32_S6400x32_0_0
  have e2 := readAt_unit arg3.view f2 hz2 inb_S96x128_S96x128_0_0
  have e3 := readAt_unit arg4.view f3 hz1 inb_S128_S128_0
  sl_exec (disch := first | exact hc)
  sl_step
  iapply Hk
  isplitl [H0]; rotate_left
  isplitl [H1]; rotate_left
  isplitl [H2]; rotate_left
  isplitl [H3]; rotate_left
  isplitl [H4]; rotate_left
  isplitl [H5]; rotate_left
  isplitl [H6]; rotate_left
  isplitl [HS0]; rotate_left
  all_goals
    iexists _; iframe; ipureintro
    repeat first | rw [read_writes_cons_unit S6400x128 hz2] | rw [read_writes_cons_unit S1x128 hz2] | rw [readCov_cons_unit S1x128 hz2] | unfold run0_first.sl.v31 | unfold run0_first.sl.HS0_2 | unfold run0_first.sl.v16 | unfold run0_first.sl.HS0_1 | unfold run0_first.sl.v33 | unfold run0_first.sl.HS1_2 | unfold run0_first.sl.v23 | unfold run0_first.sl.HS1_1 | rfl

set_option maxHeartbeats 1000000 in
theorem run0_later (K : PUnit → sProp 𝕄) (hc : ¬cond0 i) (xs0 xs1 : Vec F S1x128 .f32) :
    pre0 c arg1 arg2 arg3 arg4 arg5 arg6 arg7 x0 x1 x2 x3 iprop(owns c.tc arg8 fullShare xs0 ∗ owns c.tc arg9 fullShare xs1
      ∗ (post0 c arg1 arg2 arg3 arg4 arg5 arg6 arg7 arg8 arg9 x0 x1 x2 x3 xs0 xs1 -∗ K ⟨⟩))
    ⊢ wp frame (wpE (defs₀ (F := F)) Variants.none c none) E (cc0__k1a_kernel i arg1 harg1 arg2 harg2 arg3 harg3 arg4 harg4 arg5 harg5 arg6 harg6 arg7 harg7 arg8 harg8 arg9 harg9) K := by
  simp only [cc0__k1a_kernel_eq_skeleton]; unfold cc0__k1a_kernel_skel
  unfold pre0 post0 owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
  subst hf0 hf1 hf2 hf3 hfs0 hfs1
  have e0 := readAt_unit arg1.view f0 hz2 inb_S6400x64_S6400x64_0_0
  have e1 := readAt_unit arg2.view f1 hz2 inb_S6400x32_S6400x32_0_0
  have e2 := readAt_unit arg3.view f2 hz2 inb_S96x128_S96x128_0_0
  have e3 := readAt_unit arg4.view f3 hz1 inb_S128_S128_0
  have es0 := readAt_unit arg8.view fs0 hz2 inb_S1x128_S1x128_0_0
  have es1 := readAt_unit arg9.view fs1 hz2 inb_S1x128_S1x128_0_0
  sl_exec (disch := first | exact hc)
  sl_step
  iapply Hk
  isplitl [H0]; rotate_left
  isplitl [H1]; rotate_left
  isplitl [H2]; rotate_left
  isplitl [H3]; rotate_left
  isplitl [H4]; rotate_left
  isplitl [H5]; rotate_left
  isplitl [H6]; rotate_left
  isplitl [HS0]; rotate_left
  all_goals
    iexists _; iframe; ipureintro
    repeat first | rw [read_writes_cons_unit S6400x128 hz2] | rw [read_writes_cons_unit S1x128 hz2] | rw [readCov_cons_unit S1x128 hz2] | unfold run0_later.sl.v31 | unfold run0_later.sl.HS0_1 | unfold run0_later.sl.v33 | unfold run0_later.sl.HS1_1 | rfl

end

-- One point's update of the two running column sums (of the stored block and of its squares).
def step0 (c : Dev nD) (t : Fin cfg0.N) (a : Vec F S1x128 .f32 × Vec F S1x128 .f32) : Vec F S1x128 .f32 × Vec F S1x128 .f32 :=
  (k0_pay4 (iblk0 V c 0 t) (iblk0 V c 1 t) (iblk0 V c 2 t) (iblk0 V c 3 t) a.1, k0_pay5 (iblk0 V c 0 t) (iblk0 V c 1 t) (iblk0 V c 2 t) (iblk0 V c 3 t) a.2)

-- The running sums after point `n`: the updates of points `0 … n` applied in order to the zero vectors.
def acc0 (c : Dev nD) : (n : ℕ) → n < cfg0.N → Vec F S1x128 .f32 × Vec F S1x128 .f32
  | 0, hn => step0 V c ⟨0, hn⟩ (k0_pay1, k0_pay2)
  | n + 1, hn => step0 V c ⟨n + 1, hn⟩ (acc0 c n (Nat.lt_of_succ_lt hn))

abbrev scM0_0 : Memref sig .tc .vmem S1x128 .f32 := Memref.whole cc0_scratch0
abbrev scM0_1 : Memref sig .tc .vmem S1x128 .f32 := Memref.whole cc0_scratch1

-- The region's resources, the two accumulators' part being `A`.
def inv0 (c : Dev nD) (A : sProp 𝕄) : sProp 𝕄 :=
  iprop(iprop(A ∗ Pipeline.scopedRestBut (Ix := Unit) (Name := ℕ) (U := UR sig nD τ) (Lvl := ℕ) (Val := Elt F) spec0 c [cc0_scratch0, cc0_scratch1]) ∗ (∃ r, prngReg c r))

-- The invariant: before point `n + 1` the two accumulators hold the running sums after point `n`; before the first point, anything.
def Phi0 (c : Dev nD) : (n : ℕ) → n ≤ cfg0.N → sProp 𝕄
  | 0, _ => Pipeline.ΦA spec0 c
  | n + 1, hn => inv0 c iprop(owns c.tc scM0_0 fullShare (acc0 V c n hn).1 ∗ owns c.tc scM0_1 fullShare (acc0 V c n hn).2)

theorem PhiA0_eq (c : Dev nD) :
    (Pipeline.ΦA spec0 c : sProp 𝕄) = inv0 c iprop((∃ d, owns c.tc scM0_0 fullShare d) ∗ (∃ d, owns c.tc scM0_1 fullShare d)) := by
  unfold Pipeline.ΦA inv0; rw [scopedRest0_split]; simp only [scM0_0, scM0_1, owns_whole]; try rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (iblk0 V c 0 t) (iblk0 V c 1 t) (iblk0 V c 2 t) (iblk0 V c 3 t)
    | ⟨5, _⟩ => (acc0 V c t.val t.isLt).1
    | ⟨6, _⟩ => (acc0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := rfl
theorem after0_4_eq (c : Dev nD) (t : Fin cfg0.N) : (dat0 V c).after 4 t = k0_pay3 (iblk0 V c 0 t) (iblk0 V c 1 t) (iblk0 V c 2 t) (iblk0 V c 3 t) := rfl
theorem after0_5 (c : Dev nD) (t : Fin cfg0.N) : (dat0 V c).after 5 t = (acc0 V c t.val t.isLt).1 := rfl
theorem after0_6 (c : Dev nD) (t : Fin cfg0.N) : (dat0 V c).after 6 t = (acc0 V c t.val t.isLt).2 := rfl

theorem body_obligation0 (c : Dev nD) : BodyObligation (dat0 (F := F) V c) (defs₀ (F := F)) Variants.none () Set.univ := fun t => by
  rw [bigSep_W0, bigSep_W0]
  simp only [(dat0 V c).before_in_eq_fetched 0 rfl (fun _ => rfl) (fun _ _ _ => rfl) fun _ => rfl, (dat0 V c).before_in_eq_fetched 1 rfl (fun _ => rfl) (fun _ _ _ => rfl) fun _ => rfl,
    (dat0 V c).before_in_eq_fetched 2 rfl (fun _ => rfl) (fun _ _ _ => rfl) fun _ => rfl, (dat0 V c).before_in_eq_fetched 3 rfl (fun _ => rfl) (fun _ _ _ => rfl) fun _ => rfl]
  rw [show (dat0 V c).Φ t.castSucc = Phi0 V c t.val (Nat.le_of_lt t.isLt) from rfl,
    show (dat0 V c).Φ t.succ = inv0 c iprop(owns c.tc scM0_0 fullShare ((dat0 V c).after 5 t) ∗ owns c.tc scM0_1 fullShare ((dat0 V c).after 6 t)) from rfl]
  obtain ⟨_ | n, hn⟩ := t <;> simp only [Phi0, PhiA0_eq, inv0] <;>
    iintro ⟨⟨⟨⟨HS0, HS1⟩, Hr⟩, Hg⟩, Ho, ⟨%_, H0⟩, ⟨%_, H1⟩, ⟨%_, H2⟩, ⟨%_, H3⟩, ⟨%_, H4⟩, ⟨%_, H5⟩, ⟨%_, H6⟩⟩
  on_goal 1 => iapply (run0_first c _ _ _ _ _ _ _ _ _ _ _ _ _ _ _ _ _ _ _ _ _ _ _ Set.univ _ ((hcond0 _).mpr rfl))
  on_goal -1 => iapply (run0_later c _ _ _ _ _ _ _ _ _ _ _ _ _ _ _ _ _ _ _ _ _ _ _ Set.univ _ (fun h => Nat.succ_ne_zero _ ((hcond0 _).mp h)) _ _)
  all_goals
    unfold pre0 post0
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hr Hg]
    · iframe Hr Hg
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem hin0 (c : Dev nD) : (Pipeline.ΦA spec0 c : sProp 𝕄) ⊢ (dat0 V c).Φ 0 := Idealize.SL.BI.Entails.refl _

theorem hout0 (c : Dev nD) : (dat0 V c).Φ (Fin.last cfg0.N) ⊢ (Pipeline.ΦA spec0 c : sProp 𝕄) := by
  show Phi0 V c (124 + 1) _ ⊢ _
  simp only [Phi0, PhiA0_eq, inv0]
  iintro ⟨⟨⟨HS0, HS1⟩, Hr⟩, Hg⟩
  iframe Hr Hg
  isplitl [HS0]
  · iexists _; iexact HS0
  · iexists _; iexact HS1

end

end Cert.KernelIdeal.Hand

end
-- ==== Proof.KI.Reg1.lean ====
import proofs.«128199_j65335042507073_1_alg».proof.Proof.Gen.KernelIdeal.Launch
import proofs.«128199_j65335042507073_1_alg».proof.Proof.Gen.KernelIdeal.Skeleton
import proofs.«128199_j65335042507073_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S6400x128 := Rect.unit (s := S6400x128) ![0, 0] S6400x128.size inb_S6400x128_S6400x128_0_0
abbrev r1_1 : Rect S1x128 := Rect.unit (s := S1x128) ![0, 0] S1x128.size inb_S1x128_S1x128_0_0
abbrev r1_2 : Rect S128 := Rect.unit (s := S128) ![0] S128.size inb_S128_S128_0
abbrev r1_3 : Rect S128x128 := Rect.unit (s := S128x128) ![0, 0] S128x128.size inb_S128x128_S128x128_0_0

theorem zeros1_2 : (![0, 0] : Fin 2 → Nat) = fun _ => 0 := funext fun a => by fin_cases a <;> rfl
theorem zeros1_1 : (![0] : Fin 1 → Nat) = fun _ => 0 := funext fun a => by fin_cases a; rfl

-- The output block after the body: its one whole-block store over the whole-block loads of the input blocks.
def out1_7 (x0 : Vec F S6400x128 .f32) (x1 x2 : Vec F S1x128 .f32) (x3 x4 : Vec F S128 .f32) (x5 : Vec F S128x128 .f32) (x6 : Vec F S128 .f32) : Vec F S6400x128 .f32 :=
  View.canon [⟨r1_0, k1_pay1 (View.ld x0 r1_0) (View.ld x3 r1_2) (View.ld x1 r1_1) (View.ld x2 r1_1) (View.ld x4 r1_2) (View.ld x5 r1_3) (View.ld x6 r1_2)⟩]

-- Loads and the store are of whole blocks, so the output block is the payload of the input blocks themselves.
theorem out1_7_eq (x0 : Vec F S6400x128 .f32) (x1 : Vec F S1x128 .f32) (x2 : Vec F S1x128 .f32) (x3 : Vec F S128 .f32)
    (x4 : Vec F S128 .f32) (x5 : Vec F S128x128 .f32) (x6 : Vec F S128 .f32) :
    out1_7 x0 x1 x2 x3 x4 x5 x6 = k1_pay1 x0 x3 x1 x2 x4 x5 x6 := by
  simp only [out1_7, View.canon_unit_zero (S := S6400x128) zeros1_2, View.ld_unit_zero (S := S6400x128) zeros1_2,
    View.ld_unit_zero (S := S1x128) zeros1_2, View.ld_unit_zero (S := S128) zeros1_1, View.ld_unit_zero (S := S128x128) zeros1_2]

set_option maxHeartbeats 1000000 in
theorem sound_kernel1 (c : Dev nD) (E : Set ℕ) (i : grid1.Coords)
    (arg1 : Memref sig .tc .vmem S6400x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S128x128 .f32) (harg6 : arg6.IsWhole)
    (arg7 : Memref sig .tc .vmem S128 .f32) (harg7 : arg7.IsWhole) (arg8 : Memref sig .tc .vmem S6400x128 .f32) (harg8 : arg8.IsWhole)
    (x0 : Vec F S6400x128 .f32) (x1 x2 : Vec F S1x128 .f32) (x3 x4 : Vec F S128 .f32) (x5 : Vec F S128x128 .f32) (x6 : Vec F S128 .f32)
    (K : PUnit → sProp (MT nD τ sig Unit (Elt F) ℕ (UR sig nD τ) ℕ)) :
    iprop(owns c arg1 fullShare x0 ∗ owns c arg2 fullShare x1 ∗ owns c arg3 fullShare x2
        ∗ owns c arg4 fullShare x3 ∗ owns c arg5 fullShare x4 ∗ owns c arg6 fullShare x5
        ∗ owns c arg7 fullShare x6 ∗ (∃ d, owns c arg8 fullShare d)
        ∗ (iprop(owns c arg1 fullShare x0 ∗ owns c arg2 fullShare x1 ∗ owns c arg3 fullShare x2
            ∗ owns c arg4 fullShare x3 ∗ owns c arg5 fullShare x4 ∗ owns c arg6 fullShare x5
            ∗ owns c arg7 fullShare x6 ∗ owns c arg8 fullShare (out1_7 x0 x1 x2 x3 x4 x5 x6)) -∗ K ⟨⟩))
      ⊢ wp frame (wpE (defs₀ (F := F)) Variants.none c none) E
          (cc1__k1b_kernel i arg1 harg1 arg2 harg2 arg3 harg3 arg4 harg4 arg5 harg5 arg6 harg6 arg7 harg7 arg8 harg8) K := by
  simp only [cc1__k1b_kernel_eq_skeleton]; unfold cc1__k1b_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · sl_close
  isplitl [H1]; · sl_close
  isplitl [H2]; · sl_close
  isplitl [H3]; · sl_close
  isplitl [H4]; · sl_close
  isplitl [H5]; · sl_close
  isplitl [H6]; · sl_close
  iexists _; isplitr; swap; · iexact H7
  ipureintro
  exact View.read_writes_eq_canon _ _ _ fun y => ⟨_, List.mem_singleton_self _,
    View.mem_set_unit_zero (S := S6400x128) zeros1_2 inb_S6400x128_S6400x128_0_0 y⟩

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := rfl

theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by
  dsimp only [dat1]

-- The body leaves every input block as it found it.
theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
      ∧ (∀ d, (dat1 V c).before 3 t d = iblk1 V c 3 t) ∧ (∀ d, (dat1 V c).before 4 t d = iblk1 V c 4 t) ∧ (∀ d, (dat1 V c).before 5 t d = iblk1 V c 5 t)
      ∧ (∀ d, (dat1 V c).before 6 t d = iblk1 V c 6 t) := by
  refine ⟨?_, ?_, ?_, ?_, ?_, ?_, ?_⟩ <;> exact fun d =>
    ((dat1 V c).before_in_eq_fetched _ rfl (fun _ => rfl) (fun _ _ _ => rfl) (fun _ => rfl) t d).trans rfl

-- The body's triple, applied at the inputs' blocks; everything else passes through unchanged.
theorem body_obligation1 (c : Dev nD) : BodyObligation (dat1 (F := F) V c) (defs₀ (F := F)) Variants.none () Set.univ := fun t => by
  rw [bigSep_W1, bigSep_W1]
  show _ ⊢ wp _ _ _ (bodyAt1 t) _
  simp only [before1 V c t]
  dsimp only [dat1, Dat.owesAt]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  isplitl [HΦ]; · iexact HΦ
  isplitl [Ho]; · iexact Ho
  iexact H

end

end Cert.KernelIdeal.Hand

end
-- ==== Proof.KI.Reg2.lean ====
import proofs.«128199_j65335042507073_1_alg».proof.Proof.Gen.KernelIdeal.Launch
import proofs.«128199_j65335042507073_1_alg».proof.Proof.Gen.KernelIdeal.Skeleton
import proofs.«128199_j65335042507073_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem zero2_2 : (![0, 0] : Fin 2 → Nat) = fun _ => 0 := funext fun a => by fin_cases a <;> rfl
private theorem zero2_1 : (![0] : Fin 1 → Nat) = fun _ => 0 := funext fun a => by fin_cases a <;> rfl

private theorem read_writes_unit_zero {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons.mpr (Or.inl rfl), View.mem_set_unit_zero h inb y⟩),
    View.canon_cons_unit_zero h inb]

abbrev cond2 (i : grid2.Coords) : Prop :=
  (Scalar.cmpi .ne (Scalar.extui (Scalar.cmpi .eq (BitVec.ofNat 32 (i 0).val) 0#32)) 0#32) = 1#1

theorem hcond2 : ∀ t : Fin cfg2.N, cond2 (grid2.coords t) ↔ t.val = 0 :=
  (by decide +kernel : ∀ t : Fin grid2.N, cond2 (grid2.coords t) ↔ t.val = 0)

set_option maxHeartbeats 1000000 in
-- One pass of the body from seeds `b0 b1`: the zero vectors at the first point, the carried accumulators afterwards.
theorem kernelRun2 (c : Dev nD) (E : Set ℕ) (i : grid2.Coords)
    (arg1 : Memref sig .tc .vmem S5000x64 .f32) (harg1 : arg1.IsWhole) (arg2 : Memref sig .tc .vmem S5000x128 .f32) (harg2 : arg2.IsWhole)
    (arg3 : Memref sig .tc .vmem S192x128 .f32) (harg3 : arg3.IsWhole) (arg4 : Memref sig .tc .vmem S128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (x0 : Vec F S5000x64 .f32) (x1 : Vec F S5000x128 .f32) (x2 : Vec F S192x128 .f32) (x3 : Vec F S128 .f32)
    (a0 a1 b0 b1 : Vec F S1x128 .f32)
    (hb : cond2 i ∧ b0 = k2_pay1 ∧ b1 = k2_pay2 ∨ ¬cond2 i ∧ b0 = a0 ∧ b1 = a1) (K : PUnit → sProp 𝕄) :
    iprop(owns c.tc arg1 fullShare x0 ∗ owns c.tc arg2 fullShare x1
        ∗ owns c.tc arg3 fullShare x2 ∗ owns c.tc arg4 fullShare x3
        ∗ (∃ d, owns c.tc arg5 fullShare d) ∗ (∃ d, owns c.tc arg6 fullShare d)
        ∗ (∃ d, owns c.tc arg7 fullShare d)
        ∗ owns c.tc arg8 fullShare a0 ∗ owns c.tc arg9 fullShare a1
        ∗ (iprop(owns c.tc arg1 fullShare x0 ∗ owns c.tc arg2 fullShare x1
            ∗ owns c.tc arg3 fullShare x2 ∗ owns c.tc arg4 fullShare x3
            ∗ owns c.tc arg5 fullShare (k2_pay3 x0 x1 x2 x3)
            ∗ owns c.tc arg6 fullShare (k2_pay4 x0 x1 x2 x3 b0)
            ∗ owns c.tc arg7 fullShare (k2_pay5 x0 x1 x2 x3 b1)
            ∗ owns c.tc arg8 fullShare (k2_pay4 x0 x1 x2 x3 b0)
            ∗ owns c.tc arg9 fullShare (k2_pay5 x0 x1 x2 x3 b1)) -∗ K ⟨⟩))
      ⊢ wp frame (wpE (defs₀ (F := F)) Variants.none c none) E
          (cc2__k2a_kernel i arg1 harg1 arg2 harg2 arg3 harg3 arg4 harg4 arg5 harg5 arg6 harg6 arg7 harg7 arg8 harg8 arg9 harg9) K := by
  simp only [cc2__k2a_kernel_eq_skeleton]; unfold cc2__k2a_kernel_skel
  simp only [k2_part1_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1 hf2 hf3 hf4 hf8 hf9
  rcases hb with ⟨hc, rfl, rfl⟩ | ⟨hc, rfl, rfl⟩
  all_goals
    sl_exec (disch := exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]; iexists _; isplitr; swap; iexact H5; rotate_left
    isplitl [H6]; iexists _; isplitr; swap; iexact H6; rotate_left
    isplitl [H7]; iexists _; isplitr; swap; iexact H7; rotate_left
    isplitl [H8]; iexists _; isplitr; swap; iexact H8; rotate_left
    iexists _; isplitr; swap; iexact H9
    all_goals
      ipureintro; sl_unfold_words
      simp only [read_writes_unit_zero (S := S5000x128) _ _ zero2_2 inb_S5000x128_S5000x128_0_0, read_writes_unit_zero (S := S1x128) _ _ zero2_2 inb_S1x128_S1x128_0_0, View.readCov_cons_toLoadRect, View.readAt_eq_ld, View.ld_unit_zero (S := S5000x64) zero2_2 inb_S5000x64_S5000x64_0_0, View.ld_unit_zero (S := S5000x128) zero2_2 inb_S5000x128_S5000x128_0_0, View.ld_unit_zero (S := S192x128) zero2_2 inb_S192x128_S192x128_0_0, View.ld_unit_zero (S := S128) zero2_1 inb_S128_S128_0, View.ld_unit_zero (S := S1x128) zero2_2 inb_S1x128_S1x128_0_0]

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S1x128 .f32 × Vec F S1x128 .f32
  | 0, hn => (k2_pay4 (iblk2 V c 0 ⟨0, hn⟩) (iblk2 V c 1 ⟨0, hn⟩) (iblk2 V c 2 ⟨0, hn⟩) (iblk2 V c 3 ⟨0, hn⟩) k2_pay1,
      k2_pay5 (iblk2 V c 0 ⟨0, hn⟩) (iblk2 V c 1 ⟨0, hn⟩) (iblk2 V c 2 ⟨0, hn⟩) (iblk2 V c 3 ⟨0, hn⟩) k2_pay2)
  | n + 1, hn => (k2_pay4 (iblk2 V c 0 ⟨n + 1, hn⟩) (iblk2 V c 1 ⟨n + 1, hn⟩) (iblk2 V c 2 ⟨n + 1, hn⟩) (iblk2 V c 3 ⟨n + 1, hn⟩) (acc2 c n (Nat.lt_of_succ_lt hn)).1,
      k2_pay5 (iblk2 V c 0 ⟨n + 1, hn⟩) (iblk2 V c 1 ⟨n + 1, hn⟩) (iblk2 V c 2 ⟨n + 1, hn⟩) (iblk2 V c 3 ⟨n + 1, hn⟩) (acc2 c n (Nat.lt_of_succ_lt hn)).2)

abbrev scM2_0 : Memref sig .tc .vmem S1x128 .f32 := Memref.whole cc2_scratch0
abbrev scM2_1 : Memref sig .tc .vmem S1x128 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns c.tc scM2_0 fullShare d) ∗ (∃ d, owns c.tc scM2_1 fullShare d)) ∗ rest2 c) ∗ (∃ r, prngReg c r)) := by
  unfold Pipeline.ΦA; rw [scopedRest2_split]; simp only [scM2_0, scM2_1, owns_whole]; try rfl

def PhiS2 (c : Dev nD) : (n : ℕ) → n ≤ cfg2.N → sProp 𝕄
  | 0, _ => Pipeline.ΦA spec2 c
  | n + 1, hn => iprop(iprop(iprop(owns c.tc scM2_0 fullShare ((acc2 V c n hn).1) ∗ owns c.tc scM2_1 fullShare ((acc2 V c n hn).2)) ∗ rest2 c) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay3 (iblk2 V c 0 t) (iblk2 V c 1 t) (iblk2 V c 2 t) (iblk2 V c 3 t)
    | ⟨5, _⟩ => (acc2 V c t.val t.isLt).1
    | ⟨6, _⟩ => (acc2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = (acc2 V c t.val t.isLt).1 := by dsimp only [dat2]
theorem after2_6 (c : Dev nD) (t : Fin cfg2.N) : (dat2 V c).after 6 t = (acc2 V c t.val t.isLt).2 := by dsimp only [dat2]

theorem after2_4_eq (c : Dev nD) (t : Fin cfg2.N) :
    (dat2 V c).after 4 t = k2_pay3 (iblk2 V c 0 t) (iblk2 V c 1 t) (iblk2 V c 2 t) (iblk2 V c 3 t) := by dsimp only [dat2]

-- By cases on the point's number, on which both `acc2` and the invariant recurse.
theorem step2_first (c : Dev nD) (t : Fin cfg2.N) (hz : t.val = 0) :
    acc2 V c t.val t.isLt = (k2_pay4 (iblk2 V c 0 t) (iblk2 V c 1 t) (iblk2 V c 2 t) (iblk2 V c 3 t) k2_pay1, k2_pay5 (iblk2 V c 0 t) (iblk2 V c 1 t) (iblk2 V c 2 t) (iblk2 V c 3 t) k2_pay2)
      ∧ (dat2 V c).Φ t.castSucc = Pipeline.ΦA spec2 c := by
  obtain ⟨n, hn⟩ := t
  cases n with
  | zero => exact ⟨rfl, rfl⟩
  | succ n => exact absurd hz (Nat.succ_ne_zero n)

theorem step2_later (c : Dev nD) (t : Fin cfg2.N) (hp : t.val - 1 < cfg2.N) (hz : t.val ≠ 0) :
    acc2 V c t.val t.isLt = (k2_pay4 (iblk2 V c 0 t) (iblk2 V c 1 t) (iblk2 V c 2 t) (iblk2 V c 3 t) (acc2 V c (t.val - 1) hp).1, k2_pay5 (iblk2 V c 0 t) (iblk2 V c 1 t) (iblk2 V c 2 t) (iblk2 V c 3 t) (acc2 V c (t.val - 1) hp).2)
      ∧ (dat2 V c).Φ t.castSucc = iprop(iprop(iprop(owns c.tc scM2_0 fullShare (acc2 V c (t.val - 1) hp).1
          ∗ owns c.tc scM2_1 fullShare (acc2 V c (t.val - 1) hp).2) ∗ rest2 c) ∗ (∃ r, prngReg c r)) := by
  obtain ⟨n, hn⟩ := t
  cases n with
  | zero => exact absurd rfl hz
  | succ n => exact ⟨rfl, rfl⟩

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns c.tc (st2_0 t) fullShare ((dat2 V c).before 0 t d))
    ∗ (∃ d, owns c.tc (st2_1 t) fullShare ((dat2 V c).before 1 t d))
    ∗ (∃ d, owns c.tc (st2_2 t) fullShare ((dat2 V c).before 2 t d))
    ∗ (∃ d, owns c.tc (st2_3 t) fullShare ((dat2 V c).before 3 t d))
    ∗ (∃ d, owns c.tc (st2_4 t) fullShare ((dat2 V c).before 4 t d))
    ∗ (∃ d, owns c.tc (st2_5 t) fullShare ((dat2 V c).before 5 t d))
    ∗ (∃ d, owns c.tc (st2_6 t) fullShare ((dat2 V c).before 6 t d)))

def bodyPost2 (c : Dev nD) (t : Fin cfg2.N) : sProp 𝕄 :=
  iprop((dat2 V c).Φ t.succ ∗ (dat2 V c).owesAt () t.succ
    ∗ owns c.tc (st2_0 t) fullShare ((dat2 V c).after 0 t)
    ∗ owns c.tc (st2_1 t) fullShare ((dat2 V c).after 1 t)
    ∗ owns c.tc (st2_2 t) fullShare ((dat2 V c).after 2 t)
    ∗ owns c.tc (st2_3 t) fullShare ((dat2 V c).after 3 t)
    ∗ owns c.tc (st2_4 t) fullShare ((dat2 V c).after 4 t)
    ∗ owns c.tc (st2_5 t) fullShare ((dat2 V c).after 5 t)
    ∗ owns c.tc (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2]
  rw [after2_4_eq, after2_5, after2_6]
  by_cases hz : t.val = 0
  on_goal 1 =>
    have h := step2_first V c t hz
    rw [h.2, PhiA2_eq, h.1]
    iintro ⟨⟨⟨⟨⟨%e0, HS0⟩, ⟨%e1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun2 c Set.univ (grid2.coords t) _ _ _ _ _ _ _ _ _ _ _ _ _ _ _ _ _ _
      (iblk2 V c 0 t) (iblk2 V c 1 t) (iblk2 V c 2 t) (iblk2 V c 3 t) e0 e1 _ _ (.inl ⟨(hcond2 t).mpr hz, rfl, rfl⟩) _)
  on_goal 2 =>
    have h := step2_later V c t (Nat.lt_of_le_of_lt (Nat.sub_le _ _) t.isLt) hz
    rw [h.2, h.1]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun2 c Set.univ (grid2.coords t) _ _ _ _ _ _ _ _ _ _ _ _ _ _ _ _ _ _
      (iblk2 V c 0 t) (iblk2 V c 1 t) (iblk2 V c 2 t) (iblk2 V c 3 t) _ _ _ _ (.inr ⟨fun h => hz ((hcond2 t).mp h), rfl, rfl⟩) _)
  all_goals
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    iframe
    isplitl [H0]; · iexact H0
    isplitl [H1]; · iexact H1
    isplitl [H2]; · iexact H2
    iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := Idealize.SL.BI.Entails.refl _

theorem hout2 (c : Dev nD) : (dat2 V c).Φ (Fin.last cfg2.N) ⊢ (Pipeline.ΦA spec2 c : sProp 𝕄) := by
  rw [show (dat2 V c).Φ (Fin.last cfg2.N) = PhiS2 V c (9 + 1) (by decide) from rfl, PhiS2, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end

end Cert.KernelIdeal.Hand

end
-- ==== Proof.KI.Reg3.lean ====
import proofs.«128199_j65335042507073_1_alg».proof.Proof.Gen.KernelIdeal.Launch
import proofs.«128199_j65335042507073_1_alg».proof.Proof.Gen.KernelIdeal.Skeleton
import proofs.«128199_j65335042507073_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

section
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0
abbrev r3_3 : Rect S128 := Rect.unit (s := S128) ![0] S128.size inb_S128_S128_0
abbrev r3_5 : Rect S128x64 := Rect.unit (s := S128x64) ![0, 0] S128x64.size inb_S128x64_S128x64_0_0
abbrev r3_6 : Rect S64 := Rect.unit (s := S64) ![0] S64.size inb_S64_S64_0
abbrev r3_7 : Rect S5000x64 := Rect.unit (s := S5000x64) ![0, 0] S5000x64.size inb_S5000x64_S5000x64_0_0

theorem zero3_2 : (![0, 0] : Fin 2 → ℕ) = fun _ => 0 := funext fun a => by fin_cases a <;> rfl
theorem zero3_1 : (![0] : Fin 1 → ℕ) = fun _ => 0 := funext fun a => by fin_cases a <;> rfl

-- The output block after the body: its one whole-block store over the whole-block loads of the input blocks.
def out3_7 (x0 : Vec F S5000x128 .f32) (x1 x2 : Vec F S1x128 .f32) (x3 x4 : Vec F S128 .f32) (x5 : Vec F S128x64 .f32) (x6 : Vec F S64 .f32) : Vec F S5000x64 .f32 :=
  View.canon [⟨r3_7, k3_pay1 (View.ld x0 r3_0) (View.ld x3 r3_3) (View.ld x1 r3_1) (View.ld x2 r3_1) (View.ld x4 r3_3) (View.ld x5 r3_5) (View.ld x6 r3_6)⟩]

-- Loads and the store are of whole blocks, so the output block is the payload of the input blocks themselves.
theorem out3_7_eq (x0 : Vec F S5000x128 .f32) (x1 : Vec F S1x128 .f32) (x2 : Vec F S1x128 .f32) (x3 : Vec F S128 .f32)
    (x4 : Vec F S128 .f32) (x5 : Vec F S128x64 .f32) (x6 : Vec F S64 .f32) :
    out3_7 x0 x1 x2 x3 x4 x5 x6 = k3_pay1 x0 x3 x1 x2 x4 x5 x6 := by
  simp only [out3_7, View.canon_unit_zero (S := S5000x64) zero3_2, View.ld_unit_zero (S := S5000x128) zero3_2,
    View.ld_unit_zero (S := S1x128) zero3_2, View.ld_unit_zero (S := S128) zero3_1, View.ld_unit_zero (S := S128x64) zero3_2, View.ld_unit_zero (S := S64) zero3_1]

set_option maxHeartbeats 1000000 in
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S128x64 .f32) (harg6 : arg6.IsWhole)
    (arg7 : Memref sig .tc .vmem S64 .f32) (harg7 : arg7.IsWhole) (arg8 : Memref sig .tc .vmem S5000x64 .f32) (harg8 : arg8.IsWhole)
    (x0 : Vec F S5000x128 .f32) (x1 x2 : Vec F S1x128 .f32) (x3 x4 : Vec F S128 .f32) (x5 : Vec F S128x64 .f32) (x6 : Vec F S64 .f32)
    (K : PUnit → sProp (MT nD τ sig Unit (Elt F) ℕ (UR sig nD τ) ℕ)) :
    iprop(owns c arg1 fullShare x0 ∗ owns c arg2 fullShare x1 ∗ owns c arg3 fullShare x2
        ∗ owns c arg4 fullShare x3 ∗ owns c arg5 fullShare x4 ∗ owns c arg6 fullShare x5
        ∗ owns c arg7 fullShare x6 ∗ (∃ d, owns c arg8 fullShare d)
        ∗ (iprop(owns c arg1 fullShare x0 ∗ owns c arg2 fullShare x1 ∗ owns c arg3 fullShare x2
            ∗ owns c arg4 fullShare x3 ∗ owns c arg5 fullShare x4 ∗ owns c arg6 fullShare x5
            ∗ owns c arg7 fullShare x6 ∗ owns c arg8 fullShare (out3_7 x0 x1 x2 x3 x4 x5 x6)) -∗ K ⟨⟩))
      ⊢ wp frame (wpE (defs₀ (F := F)) Variants.none c none) E
          (cc3__k2b_kernel i arg1 harg1 arg2 harg2 arg3 harg3 arg4 harg4 arg5 harg5 arg6 harg6 arg7 harg7 arg8 harg8) K := by
  simp only [cc3__k2b_kernel_eq_skeleton]; unfold cc3__k2b_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · sl_close
  isplitl [H1]; · sl_close
  isplitl [H2]; · sl_close
  isplitl [H3]; · sl_close
  isplitl [H4]; · sl_close
  isplitl [H5]; · sl_close
  isplitl [H6]; · sl_close
  iexists _; isplitr; swap; · iexact H7
  ipureintro
  exact View.read_writes_eq_canon _ _ _ fun y => ⟨_, List.mem_singleton_self _,
    View.mem_set_unit_zero (S := S5000x64) zero3_2 inb_S5000x64_S5000x64_0_0 y⟩

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := rfl

theorem after3_7 (c : Dev nD) (t : Fin cfg3.N) : (dat3 V c).after 7 t
    = out3_7 (iblk3 V c 0 t) (iblk3 V c 1 t) (iblk3 V c 2 t) (iblk3 V c 3 t) (iblk3 V c 4 t) (iblk3 V c 5 t) (iblk3 V c 6 t) := by
  dsimp only [dat3]

-- The body leaves every input block as it found it.
theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
      ∧ (∀ d, (dat3 V c).before 3 t d = iblk3 V c 3 t) ∧ (∀ d, (dat3 V c).before 4 t d = iblk3 V c 4 t) ∧ (∀ d, (dat3 V c).before 5 t d = iblk3 V c 5 t)
      ∧ (∀ d, (dat3 V c).before 6 t d = iblk3 V c 6 t) := by
  refine ⟨?_, ?_, ?_, ?_, ?_, ?_, ?_⟩ <;> exact fun d =>
    ((dat3 V c).before_in_eq_fetched _ rfl (fun _ => rfl) (fun _ _ _ => rfl) (fun _ => rfl) t d).trans rfl

-- The body's triple, applied at the inputs' blocks; everything else passes through unchanged.
theorem body_obligation3 (c : Dev nD) : BodyObligation (dat3 (F := F) V c) (defs₀ (F := F)) Variants.none () Set.univ := fun t => by
  rw [bigSep_W3, bigSep_W3]
  show _ ⊢ wp _ _ _ (bodyAt3 t) _
  simp only [before3 V c t]
  dsimp only [dat3, Dat.owesAt]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  isplitl [HΦ]; · iexact HΦ
  isplitl [Ho]; · iexact Ho
  iexact H

end

end Cert.KernelIdeal.Hand

end
-- ==== Proof.KI.Run.lean ====
import proofs.«128199_j65335042507073_1_alg».proof.Proof.Gen.KernelIdeal.Launch
import proofs.«128199_j65335042507073_1_alg».proof.Proof.Gen.KernelIdeal.Skeleton
import proofs.«128199_j65335042507073_1_alg».proof.Proof.Gen.KernelIdeal.Points
import proofs.«128199_j65335042507073_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128199_j65335042507073_1_alg».proof.Proof.KI.Reg0
import proofs.«128199_j65335042507073_1_alg».proof.Proof.KI.Reg1
import proofs.«128199_j65335042507073_1_alg».proof.Proof.KI.Reg2
import proofs.«128199_j65335042507073_1_alg».proof.Proof.KI.Reg3

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w

-- Why: `arrAt` is constant on an input window (`arrAt_in`), every output window's array is in `l`, and `withArrays` changes nothing else.
theorem keep {cfg : Cfg sig Λ₀} {c : Dev nD} (d : Dat τ (Elt F) Unit ℕ (UR sig nD τ) ℕ cfg c)
    (hinj : Function.Injective (Pipeline.arrRef cfg.spec)) (V : Valuation τ sig (Elt F))
    (hA : ∀ w, d.A w = V (Proc.devRef .tc (Pipeline.arrRef cfg.spec w))) (l : List (Ref sig .tc))
    (hl : ∀ w, (cfg.win w).isOut = true → Pipeline.arrRef cfg.spec w ∈ l) (b : Ref sig .tc) (h : b ∉ l) :
    Pipeline.withArrays cfg.spec c V (fun w => d.arrAt w cfg.N) (Proc.devRef .tc b) = V (Proc.devRef .tc b) := by
  by_cases hb : ∃ w, Pipeline.arrRef cfg.spec w = b
  · obtain ⟨w, rfl⟩ := hb
    rw [Pipeline.withArrays_arr _ hinj]
    cases hw : (cfg.win w).isOut
    · exact (d.arrAt_in w hw _).trans (hA w)
    · exact absurd (hl w hw) h
  · exact Pipeline.withArrays_of_ne _ c _ _ b fun w e => hb ⟨w, e⟩

theorem W1_of (c : Dev nD) (b : Ref sig .tc) (h : b ∉ hostOps0_W) :
    W1 m ρ c (Proc.devRef .tc b) = W0 m ρ c (Proc.devRef .tc b) :=
  StableHlo.after_of_writes_sub hostOps0 _ hostOps0_writes h
theorem W2_of (c : Dev nD) (b : Ref sig .tc) (h : b ∉ ([main_v11_0, main_v11_1, main_v11_2] : List (Ref sig .tc))) :
    W2 m ρ c (Proc.devRef .tc b) = W1 m ρ c (Proc.devRef .tc b) :=
  keep (dat0 (V1 m ρ) c) launch0.win.arr_inj (W1 m ρ c) (A_eq0 _ c) _ (by decide) b h
theorem W3_of (c : Dev nD) (b : Ref sig .tc) (h : b ∉ hostOps1_W) :
    W3 m ρ c (Proc.devRef .tc b) = W2 m ρ c (Proc.devRef .tc b) :=
  StableHlo.after_of_writes_sub hostOps1 _ hostOps1_writes h
theorem W4_of (c : Dev nD) (b : Ref sig .tc) (h : b ∉ ([main_v18] : List (Ref sig .tc))) :
    W4 m ρ c (Proc.devRef .tc b) = W3 m ρ c (Proc.devRef .tc b) :=
  keep (dat1 (V3 m ρ) c) launch1.win.arr_inj (W3 m ρ c) (A_eq1 _ c) _ (by decide) b h
theorem W5_of (c : Dev nD) (b : Ref sig .tc) (h : b ∉ hostOps2_W) :
    W5 m ρ c (Proc.devRef .tc b) = W4 m ρ c (Proc.devRef .tc b) :=
  StableHlo.after_of_writes_sub hostOps2 _ hostOps2_writes h
theorem W6_of (c : Dev nD) (b : Ref sig .tc) (h : b ∉ ([main_v22_0, main_v22_1, main_v22_2] : List (Ref sig .tc))) :
    W6 m ρ c (Proc.devRef .tc b) = W5 m ρ c (Proc.devRef .tc b) :=
  keep (dat2 (V5 m ρ) c) launch2.win.arr_inj (W5 m ρ c) (A_eq2 _ c) _ (by decide) b h
theorem W7_of (c : Dev nD) (b : Ref sig .tc) (h : b ∉ hostOps3_W) :
    W7 m ρ c (Proc.devRef .tc b) = W6 m ρ c (Proc.devRef .tc b) :=
  StableHlo.after_of_writes_sub hostOps3 _ hostOps3_writes h
theorem W8_of (c : Dev nD) (b : Ref sig .tc) (h : b ∉ ([main_v29] : List (Ref sig .tc))) :
    W8 m ρ c (Proc.devRef .tc b) = W7 m ρ c (Proc.devRef .tc b) :=
  keep (dat3 (V7 m ρ) c) launch3.win.arr_inj (W7 m ρ c) (A_eq3 _ c) _ (by decide) b h

abbrev argRefs : List (Ref sig .tc) := [main_arg0, main_arg1, main_arg2, main_arg3, main_arg4, main_arg5, main_arg6, main_arg7, main_arg8,
  main_arg9, main_arg10, main_arg11, main_arg12, main_arg13, main_arg14, main_arg15, main_arg16]

theorem args_unwritten : ∀ b ∈ argRefs, b ∉ hostOps0_W ∧ b ∉ ([main_v11_0, main_v11_1, main_v11_2] : List (Ref sig .tc)) ∧ b ∉ hostOps1_W
    ∧ b ∉ ([main_v18] : List (Ref sig .tc)) ∧ b ∉ hostOps2_W ∧ b ∉ ([main_v22_0, main_v22_1, main_v22_2] : List (Ref sig .tc)) ∧ b ∉ hostOps3_W
    ∧ b ∉ ([main_v29] : List (Ref sig .tc)) := by decide

theorem W1_arg (c : Dev nD) (b : Ref sig .tc) (hb : b ∈ argRefs) : W1 m ρ c (Proc.devRef .tc b) = m ((c : Thread nD τ).loc b) :=
  W1_of m ρ c b (args_unwritten b hb).1
theorem W3_arg (c : Dev nD) (b : Ref sig .tc) (hb : b ∈ argRefs) : W3 m ρ c (Proc.devRef .tc b) = m ((c : Thread nD τ).loc b) :=
  (W3_of m ρ c b (args_unwritten b hb).2.2.1).trans <| (W2_of m ρ c b (args_unwritten b hb).2.1).trans (W1_arg m ρ c b hb)
theorem W5_arg (c : Dev nD) (b : Ref sig .tc) (hb : b ∈ argRefs) : W5 m ρ c (Proc.devRef .tc b) = m ((c : Thread nD τ).loc b) :=
  (W5_of m ρ c b (args_unwritten b hb).2.2.2.2.1).trans <| (W4_of m ρ c b (args_unwritten b hb).2.2.2.1).trans (W3_arg m ρ c b hb)
theorem W7_arg (c : Dev nD) (b : Ref sig .tc) (hb : b ∈ argRefs) : W7 m ρ c (Proc.devRef .tc b) = m ((c : Thread nD τ).loc b) :=
  (W7_of m ρ c b (args_unwritten b hb).2.2.2.2.2.2.1).trans <| (W6_of m ρ c b (args_unwritten b hb).2.2.2.2.2.1).trans (W5_arg m ρ c b hb)
theorem W8_arg (c : Dev nD) (b : Ref sig .tc) (hb : b ∈ argRefs) : W8 m ρ c (Proc.devRef .tc b) = m ((c : Thread nD τ).loc b) :=
  (W8_of m ρ c b (args_unwritten b hb).2.2.2.2.2.2.2).trans (W7_arg m ρ c b hb)

def pdats : (p : Fin 4) → (c : Dev nD) → Dat τ (Elt F) Unit ℕ (UR sig nD τ) ℕ (Pipeline.pin (pcfgs (F := F)) adm p) c
  | ⟨0, _⟩ => dat0 (V1 m ρ)
  | ⟨1, _⟩ => dat1 (V3 m ρ)
  | ⟨2, _⟩ => dat2 (V5 m ρ)
  | ⟨3, _⟩ => dat3 (V7 m ρ)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

-- One region as an item of the run: from the contents `Wi` to `Wi` with the region's arrays at their final contents.
set_option backward.isDefEq.respectTransparency.types false in
def reg (p : Fin 4) (lf : Pipeline.LaunchFacts (nD := nD) (τ := τ) cfgs p) (Wi : Dev nD → Valuation τ sig (Elt F))
    (hb : ∀ c, BodyObligation (pdats m ρ p c) (defs₀ (F := F)) Variants.none () Set.univ)
    (hA : ∀ c w, (pdats m ρ p c).A w = Wi c (Proc.devRef .tc (Pipeline.arrRef (cfgs p).spec w)))
    (hi : ∀ c, (Pipeline.ΦA (cfgs p).spec c : sProp 𝕄) ⊢ (pdats m ρ p c).Φ 0 := by exact fun _ => .rfl)
    (ho : ∀ c, (pdats m ρ p c).Φ (Fin.last (cfgs p).N) ⊢ (Pipeline.ΦA (cfgs p).spec c : sProp 𝕄) := by exact fun _ => .rfl)
    (hq : ∀ c w, (pdats m ρ p c).q w = fullShare := by exact fun _ _ => rfl) (hw : ∀ c t, (pdats m ρ p c).owed t = 0 := by exact fun _ _ => rfl)
    (hr : ∀ c t x, x ∈ (pdats m ρ p c).recorded t := by exact fun _ _ _ => trivial) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hw
  pre c := iprop(StableHlo.held (c : Thread nD τ) (Pipeline.ucRefs τ sig) (Wi c) ∗ R c)
  post c := iprop(StableHlo.held (c : Thread nD τ) (Pipeline.ucRefs τ sig)
    (Pipeline.withArrays (cfgs p).spec c (Wi c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [hw]
      icases HO with ⟨%W, HO⟩; iexists W; isplitr; · ipureintro; exact fun x _ => Or.inl (hr c 0 x)
      iexact HO
    isplitl [Hp]; · iexact Hp
    iexact Hrest
  hin c := by
    refine .trans ?_ (hi c)
    unfold Pipeline.ΦA
    iintro ⟨Hp, -, Hr⟩
    isplitl [Hr]; · iexact Hr
    iexact Hp
  hout c := by
    rw [Pipeline.ownSems0_none]
    refine (ho c).trans ?_
    unfold Pipeline.ΦA
    iintro ⟨Hr, Hp⟩
    isplitl [Hp]; · iexact Hp
    isplitr; · iempintro
    iexact Hr
  hexit c := by
    have hF (w) := (Pipeline.withArrays_arr (cfgs p).spec lf.win.arr_inj c (Wi c) (fun w => (pdats m ρ p c).arrAt w (cfgs p).N) w).symm
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => Wi c b)
      (fun b => Pipeline.withArrays (cfgs p).spec c (Wi c) (fun w => (pdats m ρ p c).arrAt w (cfgs p).N) b) ((pdats m ρ p c).arrAt · (cfgs p).N) hF
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [hw]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg m ρ 0 launch0 (W1 m ρ) (body_obligation0 _) (A_eq0 _) (hin0 _) (hout0 _)),
    .host (hseg hostOps1 hostOps1_sub hostOps1_fresh (W2 m ρ)),
    .region (reg m ρ 1 launch1 (W3 m ρ) (body_obligation1 _) (A_eq1 _)),
    .host (hseg hostOps2 hostOps2_sub hostOps2_fresh (W4 m ρ)),
    .region (reg m ρ 2 launch2 (W5 m ρ) (body_obligation2 _) (A_eq2 _) (hin2 _) (hout2 _)),
    .host (hseg hostOps3 hostOps3_sub hostOps3_fresh (W6 m ρ)),
    .region (reg m ρ 3 launch3 (W7 m ρ) (body_obligation3 _) (A_eq3 _)) ]
theorem main_run (c : Dev nD) : main (F := F) c = Pipeline.Seg.run (segs m ρ) := (main_chain c).trans (by chain_rfl)

theorem mem_uc : ∀ b ∈ main_v29 :: argRefs, Proc.devRef .tc b ∈ Pipeline.ucRefs τ sig := fun b hb =>
  Finset.mem_filter.mpr ⟨StableHlo.devRef_mem_tcRefs b, by revert b; decide⟩

set_option backward.isDefEq.respectTransparency.types false in
theorem run_v29 : θ_run defs (onTc (τ := τ) (main (F := F))) ⟨m, fun _ => 0, ρ⟩ (fun r => ∀ c : Dev nD,
      r.2.mem ((c.tc : Thread nD τ).loc main_v29) = W8 m ρ c (Proc.devRef .tc main_v29)
      ∧ argRefs.Forall fun b => r.2.mem ((c.tc : Thread nD τ).loc b) = m ((c.tc : Thread nD τ).loc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W8 m ρ c) ∗ ∃ r, prngReg c r))
    (hch := ⟨fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => ⟨h c _ (mem_uc _ (.head _)),
      List.forall_iff_forall_mem.mpr fun b hb => (h c _ (mem_uc b (.tail _ hb))).trans (W8_arg m ρ c b hb)⟩)

theorem frame : θ_run defs (onTc (τ := τ) (main (F := F))) ⟨m, fun _ => 0, ρ⟩ (fun r => ∀ c : Dev nD,
      argRefs.Forall fun b => r.2.mem ((c.tc : Thread nD τ).loc b) = m ((c.tc : Thread nD τ).loc b)) :=
  (θ_run defs _ _).mono (fun r h c => (h c).2) (run_v29 m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

variable {n K H O A B : ℕ}

def mat {a b : ℕ} (v : (⟨2, ![a, b]⟩ : Shape).Idx → EReal) : Fin a → Fin b → EReal := fun i j => v (ix2 i j)

def vec {a : ℕ} (v : (⟨1, ![a]⟩ : Shape).Idx → EReal) : Fin a → EReal := fun i => v (ix1 i)

def row0 {a : ℕ} (v : (⟨2, ![1, a]⟩ : Shape).Idx → EReal) : Fin a → EReal := fun j => v (ix2 0 j)

def unmat {a b : ℕ} (f : Fin a → Fin b → EReal) : (⟨2, ![a, b]⟩ : Shape).Idx → EReal := fun i => f (i 0) (i 1)
theorem mat_unmat {a b : ℕ} (f : Fin a → Fin b → EReal) : mat (unmat f) = f := rfl
theorem unmat_apply {a b : ℕ} (f : Fin a → Fin b → EReal) (p : Fin a) (q : Fin b) : unmat f (ix2 p q) = f p q := rfl

-- Rows side by side: columns below A from x, the others from y.
def cat (x : Fin n → Fin A → EReal) (y : Fin n → Fin B → EReal) (e : Fin n) (k : Fin (A + B)) : EReal :=
  if h : k.val < A then x e ⟨k.val, h⟩ else y e ⟨k.val - A, by omega⟩

def lin (a : Fin n → Fin K → EReal) (W : Fin K → Fin H → EReal) (b : Fin H → EReal) (e : Fin n) (j : Fin H) : EReal :=
  (∑ k : Fin K, a e k * W k j) + b j

def colSum (h : Fin n → Fin H → EReal) (j : Fin H) : EReal := ∑ e : Fin n, h e j
def colSumSq (h : Fin n → Fin H → EReal) (j : Fin H) : EReal := ∑ e : Fin n, h e j * h e j

def meanOf (cnt : EReal) (s : Fin H → EReal) (j : Fin H) : EReal := Ideal.div (s j) cnt

-- The variance as mean of squares minus squared mean, from the two column sums.
def varK (cnt : EReal) (s q : Fin H → EReal) (j : Fin H) : EReal :=
  Ideal.div (q j) cnt - meanOf cnt s j * meanOf cnt s j

-- The variance as the mean of squared deviations from the column mean.
def varR (cnt : EReal) (h : Fin n → Fin H → EReal) (j : Fin H) : EReal :=
  Ideal.div (∑ e : Fin n, (h e j - meanOf cnt (colSum h) j) * (h e j - meanOf cnt (colSum h) j)) cnt

-- Normalise, scale, shift and rectify, scaling by the reciprocal square root.
def actK (eps : EReal) (g be mean var : Fin H → EReal) (h : Fin n → Fin H → EReal) (e : Fin n) (k : Fin H) : EReal :=
  max (g k * (h e k - mean k) * Ideal.rsqrt (var k + eps) + be k) 0

-- The same with a quotient by the square root.
def actR (eps : EReal) (g be mean var : Fin H → EReal) (h : Fin n → Fin H → EReal) (e : Fin n) (k : Fin H) : EReal :=
  max (Ideal.div (g k * (h e k - mean k)) (Ideal.sqrt (var k + eps)) + be k) 0

-- One perceptron block with batch normalisation between its two affine maps, in the first program's form.
def mlpK (cnt eps : EReal) (a : Fin n → Fin K → EReal) (Wa : Fin K → Fin H → EReal) (ba g be : Fin H → EReal)
    (Wb : Fin H → Fin O → EReal) (bb : Fin O → EReal) : Fin n → Fin O → EReal :=
  lin (actK eps g be (meanOf cnt (colSum (lin a Wa ba))) (varK cnt (colSum (lin a Wa ba)) (colSumSq (lin a Wa ba))) (lin a Wa ba)) Wb bb

-- The block in the second program's form.
def mlpR (cnt eps : EReal) (a : Fin n → Fin K → EReal) (Wa : Fin K → Fin H → EReal) (ba g be : Fin H → EReal)
    (Wb : Fin H → Fin O → EReal) (bb : Fin O → EReal) : Fin n → Fin O → EReal :=
  lin (actR eps g be (meanOf cnt (colSum (lin a Wa ba))) (varR cnt (lin a Wa ba)) (lin a Wa ba)) Wb bb

def Fin2 (h : Fin n → Fin H → EReal) : Prop := ∀ e j, ∃ r : ℝ, h e j = (r : EReal)
def Fin1 (v : Fin H → EReal) : Prop := ∀ j, ∃ r : ℝ, v j = (r : EReal)

end Cert.Spec

end
-- ==== Proof.KI.Pay0.lean ====
import proofs.«128199_j65335042507073_1_alg».proof.Proof.Gen.KernelIdeal.Skeleton
import proofs.«128199_j65335042507073_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

variable {M A B K N : ℕ}

-- At contracted coordinate k the two factors of entry (r, j) sit at (r, k) and (k, j).
theorem mm_apply (X : FVec Ideal ⟨2, ![M, K]⟩ .bf16) (W : FVec Ideal ⟨2, ![K, N]⟩ .bf16) (r : Fin M) (j : Fin N) :
    matmul (DotDims.plain M K N) none X W (constant (F := Ideal) ⟨2, ![M, N]⟩ .f32 0x00000000#32) (ix2 r j)
      = ∑ k : Fin K, X (ix2 r k) * W (ix2 k j) := by
  show FloatOps.matmul _ none X W _ _ = _
  rw [Ideal.matmul_constant_zero_apply, ← Equiv.sum_comp (contrEquiv1 (DotDims.plain M K N) K rfl rfl).symm]
  refine Finset.sum_congr rfl fun k _ => ?_
  congr 2 <;> funext a <;> refine Fin.ext ?_ <;> match a with
    | ⟨0, _⟩ => rfl
    | ⟨1, _⟩ => rfl

theorem cat_apply (x : (⟨2, ![M, A]⟩ : Shape).Idx → EReal) (y : (⟨2, ![M, B]⟩ : Shape).Idx → EReal)
    (h : Shape.Concatenates [⟨2, ![M, A]⟩, ⟨2, ![M, B]⟩] ⟨2, ![M, A + B]⟩ 1) (r : Fin M) (k : Fin (A + B)) :
    concatenate ⟨2, ![M, A + B]⟩ 1 [⟨_, x⟩, ⟨_, y⟩] h (ix2 r k) = Spec.cat (Spec.mat x) (Spec.mat y) r k := by
  unfold Spec.cat
  split
  · next hk =>
    exact concatenate_pair_apply_left (1 : Fin 2) x y _ (ix2 r k) rfl (ix2 r ⟨k.val, hk⟩) (fun b => by
      match b with
      | ⟨0, _⟩ => rfl
      | ⟨1, _⟩ => rfl)
  · next hk =>
    exact concatenate_pair_apply_right (1 : Fin 2) x y _ (ix2 r k) rfl rfl (ix2 r ⟨k.val - A, by omega⟩) (fun b hb => by
      match b with
      | ⟨0, _⟩ => rfl
      | ⟨1, _⟩ => exact absurd rfl hb) (by
        show (k.val - A) + A = k.val
        omega)

-- Over the extended reals narrowing the factors is the identity, so the block is the affine image of "x beside y".
theorem hid_apply (x : Vec Ideal ⟨2, ![M, A]⟩ .f32) (y : Vec Ideal ⟨2, ![M, B]⟩ .f32) (W : Vec Ideal ⟨2, ![A + B, N]⟩ .f32)
    (b : Vec Ideal ⟨1, ![N]⟩ .f32) (hc : Shape.Concatenates [⟨2, ![M, A]⟩, ⟨2, ![M, B]⟩] ⟨2, ![M, A + B]⟩ 1)
    (hs : (⟨1, ![N]⟩ : Shape).ShapeCasts ⟨2, ![1, N]⟩) (hb : (⟨2, ![1, N]⟩ : Shape).Broadcasts ⟨2, ![M, N]⟩)
    (r : Fin M) (j : Fin N) :
    addf (matmul (DotDims.plain M (A + B) N) none
        (truncf .bf16 (concatenate ⟨2, ![M, A + B]⟩ 1 [⟨_, x⟩, ⟨_, y⟩] hc) bitsLt_bf16_f32) (truncf .bf16 W bitsLt_bf16_f32)
        (constant (F := Ideal) ⟨2, ![M, N]⟩ .f32 0x00000000#32)) (broadcastTo ⟨2, ![M, N]⟩ (shapeCast ⟨2, ![1, N]⟩ b hs) hb) (ix2 r j)
      = Spec.lin (Spec.cat (Spec.mat x) (Spec.mat y)) (Spec.mat W) (Spec.vec b) r j := by
  show matmul _ none _ _ _ (ix2 r j) + broadcastTo _ _ hb (ix2 r j) = _
  rw [mm_apply, broadcastTo_1b_ab_apply, shapeCast_a_1a_apply]
  refine congrArg (· + b (ix1 j)) (Finset.sum_congr rfl fun k _ => ?_)
  show concatenate _ 1 [⟨_, x⟩, ⟨_, y⟩] hc (ix2 r k) * W (ix2 k j) = _
  rw [cat_apply]
  rfl

theorem acc_apply (X : FVec Ideal ⟨2, ![M, N]⟩ .f32) (v : FVec Ideal ⟨2, ![1, N]⟩ .f32)
    (h : (⟨2, ![M, N]⟩ : Shape).Reduces [0] ⟨1, ![N]⟩) (hφ : FKind.Formats .f32)
    (hacc : (0x00000000#32 : BitVec 32) = FKind.add.neutral .f32 hφ) (hs : (⟨1, ![N]⟩ : Shape).ShapeCasts ⟨2, ![1, N]⟩) (j : Fin N) :
    addf v (shapeCast ⟨2, ![1, N]⟩ (multiReduction (F := Ideal) .add [0] ⟨1, ![N]⟩ X 0x00000000#32 h hφ hacc) hs) (ix2 0 j)
      = v (ix2 0 j) + ∑ r : Fin M, X (ix2 r j) :=
  congrArg (v (ix2 0 j) + ·) ((shapeCast_a_1a_apply _ hs 0 j).trans
    ((Ideal.multiReduction_add_single X _ h hφ hacc (ix1 j)).trans
      (Finset.sum_congr rfl fun r _ => congrArg X (funext fun a => match a with | ⟨0, _⟩ => rfl | ⟨1, _⟩ => rfl))))

variable (v3 : Vec Ideal S6400x64 .f32) (v5 : Vec Ideal S6400x32 .f32) (v8 : Vec Ideal S96x128 .f32) (v11 : Vec Ideal S128 .f32)

abbrev hblk0 : Fin 6400 → Fin 128 → EReal :=
  Spec.lin (Spec.cat (Spec.mat v3) (Spec.mat v5)) (Spec.mat v8) (Spec.vec v11)

theorem k0_pay3_apply (r : Fin 6400) (j : Fin 128) :
    k0_pay3 (F := Ideal) v3 v5 v8 v11 (ix2 r j) = hblk0 v3 v5 v8 v11 r j := by
  unfold k0_pay3
  rw [shapeCast_self]
  exact hid_apply (A := 64) (B := 32) v3 v5 v8 v11 _ _ _ r j

theorem k0_pay4_apply (v16 : Vec Ideal S1x128 .f32) (j : Fin 128) :
    k0_pay4 (F := Ideal) v3 v5 v8 v11 v16 (ix2 0 j) = v16 (ix2 0 j) + ∑ r : Fin 6400, hblk0 v3 v5 v8 v11 r j := by
  unfold k0_pay4
  rw [shapeCast_self]
  exact (acc_apply _ v16 _ _ _ _ j).trans (by simp only [k0_pay3_apply])

theorem k0_pay5_apply (v23 : Vec Ideal S1x128 .f32) (j : Fin 128) :
    k0_pay5 (F := Ideal) v3 v5 v8 v11 v23 (ix2 0 j)
      = v23 (ix2 0 j) + ∑ r : Fin 6400, hblk0 v3 v5 v8 v11 r j * hblk0 v3 v5 v8 v11 r j := by
  unfold k0_pay5
  rw [shapeCast_self]
  exact (acc_apply _ v23 _ _ _ _ j).trans (by simp only [mulf_apply, k0_pay3_apply])

theorem k0_pay1_apply (j : Fin 128) : k0_pay1 (F := Ideal) (ix2 0 j) = 0 := by
  unfold k0_pay1
  rw [shapeCast_self]
  exact Ideal.ofBits_zero_f32

theorem k0_pay2_apply (j : Fin 128) : k0_pay2 (F := Ideal) (ix2 0 j) = 0 := by
  unfold k0_pay2
  rw [shapeCast_self]
  exact Ideal.ofBits_zero_f32

end Cert.KernelIdeal.Hand

end
-- ==== Proof.SpecLaws.lean ====
import proofs.«128199_j65335042507073_1_alg».proof.Proof.Spec
import Mathlib.Algebra.BigOperators.Fin
import Mathlib.Algebra.BigOperators.Ring.Finset
import Mathlib.Tactic.Ring
import Mathlib.Tactic.FieldSimp
import Mathlib.Tactic.Linarith
import Mathlib.Tactic.NormNum

noncomputable section

namespace Cert.Spec

open Idealize.ShloMosaic

variable {n K H O A B : ℕ}

theorem coe_sum {ι : Type} (s : Finset ι) (f : ι → ℝ) :
    (∑ i ∈ s, ((f i : ℝ) : EReal)) = ((∑ i ∈ s, f i : ℝ) : EReal) :=
  (map_sum (⟨⟨Real.toEReal, EReal.coe_zero⟩, EReal.coe_add⟩ : ℝ →+ EReal) f s).symm

theorem Fin2.exists_real {h : Fin n → Fin H → EReal} (hf : Fin2 h) :
    ∃ r : Fin n → Fin H → ℝ, h = fun e j => ((r e j : ℝ) : EReal) := by
  choose r hr using hf
  exact ⟨r, funext fun e => funext fun j => hr e j⟩

theorem Fin1.exists_real {v : Fin H → EReal} (hf : Fin1 v) :
    ∃ r : Fin H → ℝ, v = fun j => ((r j : ℝ) : EReal) := by
  choose r hr using hf
  exact ⟨r, funext fun j => hr j⟩

theorem cat_fin {x : Fin n → Fin A → EReal} {y : Fin n → Fin B → EReal} (hx : Fin2 x) (hy : Fin2 y) :
    Fin2 (cat x y) := by
  intro e k
  unfold cat
  split
  · exact hx _ _
  · exact hy _ _

theorem lin_fin {a : Fin n → Fin K → EReal} {W : Fin K → Fin H → EReal} {b : Fin H → EReal}
    (ha : Fin2 a) (hW : Fin2 W) (hb : Fin1 b) : Fin2 (lin a W b) := by
  obtain ⟨a', rfl⟩ := ha.exists_real
  obtain ⟨W', rfl⟩ := hW.exists_real
  obtain ⟨b', rfl⟩ := hb.exists_real
  intro e j
  refine ⟨(∑ k, a' e k * W' k j) + b' j, ?_⟩
  unfold lin
  simp only [← EReal.coe_mul]
  rw [coe_sum, ← EReal.coe_add]

section Stats

variable (N : ℝ) (h : Fin n → Fin H → ℝ) (j : Fin H)

theorem meanOf_colSum_coe (hN : N ≠ 0) :
    meanOf (N : EReal) (colSum (fun e j => ((h e j : ℝ) : EReal))) j
      = (((∑ e : Fin n, h e j) * (1 / N) : ℝ) : EReal) := by
  unfold meanOf colSum
  rw [coe_sum, Ideal.div_coe hN, ← EReal.coe_mul]

theorem varR_coe (hN : N ≠ 0) :
    varR (N : EReal) (fun e j => ((h e j : ℝ) : EReal)) j
      = (((∑ e : Fin n, (h e j - (∑ e : Fin n, h e j) * (1 / N)) * (h e j - (∑ e : Fin n, h e j) * (1 / N)))
          * (1 / N) : ℝ) : EReal) := by
  unfold varR
  rw [meanOf_colSum_coe N h j hN]
  simp only [← EReal.coe_sub, ← EReal.coe_mul]
  rw [coe_sum, Ideal.div_coe hN, ← EReal.coe_mul]

theorem sum_sq_dev (f : Fin n → ℝ) (hN : N = (n : ℝ)) (hn : 0 < n) :
    (∑ e : Fin n, (f e - (∑ e : Fin n, f e) * (1 / N)) * (f e - (∑ e : Fin n, f e) * (1 / N))) * (1 / N)
      = (∑ e : Fin n, f e * f e) * (1 / N)
        - ((∑ e : Fin n, f e) * (1 / N)) * ((∑ e : Fin n, f e) * (1 / N)) := by
  have hN0 : N ≠ 0 := by rw [hN]; exact_mod_cast hn.ne'
  simp only [sub_mul, mul_sub, Finset.sum_sub_distrib, ← Finset.sum_mul, ← Finset.mul_sum, Finset.sum_const,
    Finset.card_univ, Fintype.card_fin, nsmul_eq_mul, ← hN]
  field_simp
  ring

end Stats

theorem varK_eq_varR (N : ℝ) (hN : N = (n : ℝ)) (hn : 0 < n) {h : Fin n → Fin H → EReal} (hf : Fin2 h) :
    varK (N : EReal) (colSum h) (colSumSq h) = varR (N : EReal) h := by
  have hN0 : N ≠ 0 := by rw [hN]; exact_mod_cast hn.ne'
  obtain ⟨h', rfl⟩ := hf.exists_real
  funext j
  rw [varR_coe N h' j hN0, sum_sq_dev N (fun e => h' e j) hN hn]
  unfold varK colSumSq
  simp only [← EReal.coe_mul]
  rw [meanOf_colSum_coe N h' j hN0, coe_sum, Ideal.div_coe hN0, ← EReal.coe_mul, ← EReal.coe_mul, ← EReal.coe_sub]

theorem varR_nonneg (N : ℝ) (hN : N = (n : ℝ)) (hn : 0 < n) {h : Fin n → Fin H → EReal} (hf : Fin2 h)
    (j : Fin H) : ∃ v : ℝ, 0 ≤ v ∧ varR (N : EReal) h j = (v : EReal) := by
  have hNpos : 0 < N := by rw [hN]; exact_mod_cast hn
  obtain ⟨h', rfl⟩ := hf.exists_real
  refine ⟨_, ?_, varR_coe N h' j hNpos.ne'⟩
  exact mul_nonneg (Finset.sum_nonneg fun e _ => mul_self_nonneg _) (one_div_pos.mpr hNpos).le

theorem actK_eq_actR (ε : ℝ) (hε : 0 < ε) (g be mean : Fin H → EReal) {var : Fin H → EReal}
    (hv : ∀ k, ∃ v : ℝ, 0 ≤ v ∧ var k = (v : EReal)) (h : Fin n → Fin H → EReal) :
    actK (ε : EReal) g be mean var h = actR (ε : EReal) g be mean var h := by
  funext e k
  obtain ⟨v, hv0, hvk⟩ := hv k
  have hpos : 0 < v + ε := by linarith
  unfold actK actR
  rw [hvk, ← EReal.coe_add, Ideal.rsqrt_coe, Ideal.sqrt_coe, if_neg (not_lt.mpr hpos.le), if_neg hpos.ne',
    if_neg (not_lt.mpr hpos.le), Ideal.div_coe (Real.sqrt_pos.mpr hpos).ne', one_div]

theorem mlpK_eq_mlpR (N ε : ℝ) (hN : N = (n : ℝ)) (hn : 0 < n) (hε : 0 < ε) {a : Fin n → Fin K → EReal}
    {Wa : Fin K → Fin H → EReal} {ba : Fin H → EReal} (g be : Fin H → EReal) (Wb : Fin H → Fin O → EReal)
    (bb : Fin O → EReal) (ha : Fin2 a) (hWa : Fin2 Wa) (hba : Fin1 ba) :
    mlpK (N : EReal) (ε : EReal) a Wa ba g be Wb bb = mlpR (N : EReal) (ε : EReal) a Wa ba g be Wb bb := by
  have hl : Fin2 (lin a Wa ba) := lin_fin ha hWa hba
  unfold mlpK mlpR
  rw [varK_eq_varR N hN hn hl, actK_eq_actR ε hε g be _ (varR_nonneg N hN hn hl)]

theorem actR_fin (ε : ℝ) (hε : 0 < ε) {g be mean var : Fin H → EReal} {h : Fin n → Fin H → EReal}
    (hg : Fin1 g) (hbe : Fin1 be) (hm : Fin1 mean) (hv : ∀ k, ∃ v : ℝ, 0 ≤ v ∧ var k = (v : EReal))
    (hh : Fin2 h) : Fin2 (actR (ε : EReal) g be mean var h) := by
  intro e k
  obtain ⟨v, hv0, hvk⟩ := hv k
  obtain ⟨g', hg'⟩ := hg k
  obtain ⟨be', hbe'⟩ := hbe k
  obtain ⟨m', hm'⟩ := hm k
  obtain ⟨h', hh'⟩ := hh e k
  have hpos : 0 < v + ε := by linarith
  unfold actR
  rw [hvk, hg', hbe', hm', hh', ← EReal.coe_add, Ideal.sqrt_coe, if_neg (not_lt.mpr hpos.le),
    Ideal.div_coe (Real.sqrt_pos.mpr hpos).ne', ← EReal.coe_sub, ← EReal.coe_mul, ← EReal.coe_mul, ← EReal.coe_add,
    ← EReal.coe_zero]
  exact ⟨_, (EReal.coe_strictMono.monotone.map_max).symm⟩

theorem mlpR_fin (N ε : ℝ) (hN : N = (n : ℝ)) (hn : 0 < n) (hε : 0 < ε) {a : Fin n → Fin K → EReal}
    {Wa : Fin K → Fin H → EReal} {ba g be : Fin H → EReal} {Wb : Fin H → Fin O → EReal} {bb : Fin O → EReal}
    (ha : Fin2 a) (hWa : Fin2 Wa) (hba : Fin1 ba) (hg : Fin1 g) (hbe : Fin1 be) (hWb : Fin2 Wb) (hbb : Fin1 bb) :
    Fin2 (mlpR (N : EReal) (ε : EReal) a Wa ba g be Wb bb) := by
  have hN0 : N ≠ 0 := by rw [hN]; exact_mod_cast hn.ne'
  have hl : Fin2 (lin a Wa ba) := lin_fin ha hWa hba
  have hmean : Fin1 (meanOf (N : EReal) (colSum (lin a Wa ba))) := by
    obtain ⟨l', hl'⟩ := hl.exists_real
    intro j
    rw [hl']
    exact ⟨_, meanOf_colSum_coe N l' j hN0⟩
  unfold mlpR
  exact lin_fin (actR_fin ε hε hg hbe hmean (varR_nonneg N hN hn hl) hl) hWb hbb

theorem sum_blocks (T R : ℕ) (f : Fin (T * R) → EReal) :
    ∑ e : Fin (T * R), f e
      = ∑ t : Fin T, ∑ r : Fin R, f ⟨t.val * R + r.val, by nlinarith [t.isLt, r.isLt]⟩ := by
  rw [← Fintype.sum_prod_type']
  refine (Fintype.sum_equiv finProdFinEquiv _ _ (fun p => ?_)).symm
  refine congrArg f (Fin.ext ?_)
  show p.1.val * R + p.2.val = p.2.val + R * p.1.val
  rw [Nat.mul_comm, Nat.add_comm]

theorem ofBits_800000 : Ideal.ofBits .f32 0x49435000#32 = ((800000 : ℝ) : EReal) := by
  simp [Ideal.ofBits, Ideal.ieee, -EReal.coe_mul] <;> norm_num

theorem ofBits_50000 : Ideal.ofBits .f32 0x47435000#32 = ((50000 : ℝ) : EReal) := by
  simp [Ideal.ofBits, Ideal.ieee, -EReal.coe_mul] <;> norm_num

theorem ofBits_eps : ∃ ε : ℝ, 0 < ε ∧ Ideal.ofBits .f32 0x3727C5AC#32 = (ε : EReal) := by
  refine ⟨(10995116 : ℝ) * (2 : ℝ) ^ (-40 : ℤ), by positivity, ?_⟩
  simp [Ideal.ofBits, Ideal.ieee, -EReal.coe_mul] <;> norm_num

end Cert.Spec

end
-- ==== Proof.KI.Val0.lean ====
import proofs.«128199_j65335042507073_1_alg».proof.Proof.KI.Reg0
import proofs.«128199_j65335042507073_1_alg».proof.Proof.KI.Pay0
import proofs.«128199_j65335042507073_1_alg».proof.Proof.SpecLaws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem ext2 {n0 n1 : ℕ} {i k : (⟨2, ![n0, n1]⟩ : Shape).Idx} (h0 : (i 0).val = (k 0).val) (h1 : (i 1).val = (k 1).val) :
    i = k :=
  funext fun a => Fin.ext (match a with | ⟨0, _⟩ => h0 | ⟨1, _⟩ => h1)

-- The affine image is taken row by row.
theorem lin_cat_row {n n' A B H : ℕ} {x : Fin n → Fin A → EReal} {y : Fin n → Fin B → EReal} {x' : Fin n' → Fin A → EReal}
    {y' : Fin n' → Fin B → EReal} {W W' : Fin (A + B) → Fin H → EReal} {b b' : Fin H → EReal} (r : Fin n) (e : Fin n') (j : Fin H)
    (hx : ∀ k, x r k = x' e k) (hy : ∀ k, y r k = y' e k) (hW : W = W') (hb : b = b') :
    Spec.lin (Spec.cat x y) W b r j = Spec.lin (Spec.cat x' y') W' b' e j := by
  subst hW hb
  unfold Spec.lin Spec.cat
  simp only [hx, hy]

-- A running sum, by induction on the step.
theorem run_sum {T : ℕ} (B : Fin T → EReal) (a : (n : ℕ) → n < T → EReal) {z : EReal} (hz : z = 0)
    (h0 : ∀ hn, a 0 hn = z + B ⟨0, hn⟩) (hs : ∀ n hn, a (n + 1) hn = a n (Nat.lt_of_succ_lt hn) + B ⟨n + 1, hn⟩) :
    ∀ n (hn : n < T), a n hn = ∑ t : Fin (n + 1), B ⟨t.val, Nat.lt_of_lt_of_le t.isLt hn⟩
  | 0, hn => by rw [h0, hz, zero_add, Fin.sum_univ_castSucc (n := 0), Fin.sum_univ_zero, zero_add]; rfl
  | n + 1, hn => by rw [hs, run_sum B a hz h0 hs n, Fin.sum_univ_castSucc (n := n + 1)]; rfl

variable (V : (c : Dev nD) → (b : Ref sig .tc) → Buf (Elt Ideal) ((c : Thread nD τ).loc b))

-- Decided point by point over the grid.
theorem idx0_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_4.index t (0 : Fin 2) = t.val ∧ win0_4.index t (1 : Fin 2) = 0)
    ∧ (∀ a : Fin 2, win0_2.index t a = 0) ∧ (∀ a : Fin 1, win0_3.index t a = 0)
    ∧ (∀ a : Fin 2, win0_5.index t a = 0) ∧ (∀ a : Fin 2, win0_6.index t a = 0) :=
  (by decide +kernel : ∀ t : Fin grid0.N, _)

-- Block t of a row-blocked window starts at row 6400·t of its array.
theorem emb0_0 (t : Fin cfg0.N) (r : Fin 6400) (k : Fin 64) (e : Fin 800000) (he : e.val = t.val * 6400 + r.val) :
    (((cfg0.win 0).blk t).view.emb (ix2 r k) : S800000x64.Idx) = ix2 e k :=
  ext2 ((win0_0.rect_emb_val t _ (0 : Fin 2)).trans (by rw [(idx0_facts t).1.1]; exact he.symm))
    (win0_0.rect_emb_val_of_index_zero t (1 : Fin 2) (idx0_facts t).1.2 _)

theorem emb0_1 (t : Fin cfg0.N) (r : Fin 6400) (k : Fin 32) (e : Fin 800000) (he : e.val = t.val * 6400 + r.val) :
    (((cfg0.win 1).blk t).view.emb (ix2 r k) : S800000x32.Idx) = ix2 e k :=
  ext2 ((win0_1.rect_emb_val t _ (0 : Fin 2)).trans (by rw [(idx0_facts t).2.1.1]; exact he.symm))
    (win0_1.rect_emb_val_of_index_zero t (1 : Fin 2) (idx0_facts t).2.1.2 _)

theorem emb0_4 (t : Fin cfg0.N) (r : Fin 6400) (k : Fin 128) (e : Fin 800000) (he : e.val = t.val * 6400 + r.val) :
    (((cfg0.win 4).blk t).view.emb (ix2 r k) : S800000x128.Idx) = ix2 e k :=
  ext2 ((win0_4.rect_emb_val t _ (0 : Fin 2)).trans (by rw [(idx0_facts t).2.2.1.1]; exact he.symm))
    (win0_4.rect_emb_val_of_index_zero t (1 : Fin 2) (idx0_facts t).2.2.1.2 _)

-- A window of one block: the block is the whole array.
theorem emb0_2 (t : Fin cfg0.N) (y : S96x128.Idx) : (((cfg0.win 2).blk t).view.emb y : S96x128.Idx) = y :=
  funext fun a => Fin.ext (win0_2.rect_emb_val_of_index_zero t a ((idx0_facts t).2.2.2.1 a) y)

theorem emb0_3 (t : Fin cfg0.N) (y : S128.Idx) : (((cfg0.win 3).blk t).view.emb y : S128.Idx) = y :=
  funext fun a => Fin.ext (win0_3.rect_emb_val_of_index_zero t a ((idx0_facts t).2.2.2.2.1 a) y)

theorem emb0_5 (t : Fin cfg0.N) (y : S1x128.Idx) : (((cfg0.win 5).blk t).view.emb y : S1x128.Idx) = y :=
  funext fun a => Fin.ext (win0_5.rect_emb_val_of_index_zero t a ((idx0_facts t).2.2.2.2.2.1 a) y)

theorem emb0_6 (t : Fin cfg0.N) (y : S1x128.Idx) : (((cfg0.win 6).blk t).view.emb y : S1x128.Idx) = y :=
  funext fun a => Fin.ext (win0_6.rect_emb_val_of_index_zero t a ((idx0_facts t).2.2.2.2.2.2 a) y)

abbrev hid0 (c : Dev nD) : Fin 800000 → Fin 128 → EReal :=
  Spec.lin (Spec.cat (Spec.mat (V c main_v10 : S800000x64.Idx → EReal)) (Spec.mat (V c main_arg2 : S800000x32.Idx → EReal)))
        (Spec.mat (V c main_arg5 : S96x128.Idx → EReal)) (Spec.vec (V c main_arg6 : S128.Idx → EReal))

abbrev blk0 (c : Dev nD) (t : Fin cfg0.N) : Fin 6400 → Fin 128 → EReal :=
  hblk0 (iblk0 V c 0 t) (iblk0 V c 1 t) (iblk0 V c 2 t) (iblk0 V c 3 t)

-- The block's rows are rows 6400·t + r of the two row-blocked arrays; the weights and the bias are read whole.
theorem hblk0_row (c : Dev nD) (t : Fin cfg0.N) (r : Fin 6400) (j : Fin 128) (e : Fin 800000)
    (he : e.val = t.val * 6400 + r.val) : blk0 V c t r j = hid0 V c e j :=
  lin_cat_row r e j (fun k => by unfold iblk0; exact congrArg (V c main_v10) (emb0_0 t r k e he))
    (fun k => by unfold iblk0; exact congrArg (V c main_arg2) (emb0_1 t r k e he))
    (congrArg Spec.mat (funext fun x => by unfold iblk0; exact congrArg (V c main_arg5) (emb0_2 t x)))
    (congrArg Spec.vec (funext fun x => by unfold iblk0; exact congrArg (V c main_arg6) (emb0_3 t x)))

theorem final0_4 (c : Dev nD) : (dat0 (F := Ideal) V c).arrAt 4 cfg0.N
    = Spec.unmat (Spec.lin (Spec.cat (Spec.mat (V c main_v10 : S800000x64.Idx → EReal)) (Spec.mat (V c main_arg2 : S800000x32.Idx → EReal)))
        (Spec.mat (V c main_arg5 : S96x128.Idx → EReal)) (Spec.vec (V c main_arg6 : S128.Idx → EReal))) := by
  have hN : cfg0.N = 125 := N_0
  refine (dat0 V c).arrAt_eq_of_cover 4 (Spec.unmat (hid0 V c)) (fun t _ => ?_) fun (i : S800000x128.Idx) => ?_
  · show (cfg0.win 4).cut (grid0.coords t) ((dat0 V c).after 4 t) = _
    rw [after0_4_eq]
    funext (y : S6400x128.Idx)
    obtain ⟨r, j, rfl⟩ : ∃ (r : Fin 6400) (j : Fin 128), y = ix2 r j := ⟨y 0, y 1, eq_ix2 y⟩
    show k0_pay3 (F := Ideal) (iblk0 V c 0 t) (iblk0 V c 1 t) (iblk0 V c 2 t) (iblk0 V c 3 t) (ix2 r j)
      = Spec.unmat (hid0 V c) (((cfg0.win 4).blk t).view.emb (ix2 r j))
    rw [emb0_4 t r j ⟨t.val * 6400 + r.val, by have := lt_of_lt_of_eq t.isLt N_0; have := r.isLt; omega⟩ rfl, k0_pay3_apply]
    exact hblk0_row V c t r j _ rfl
  · obtain ⟨p, q, rfl⟩ : ∃ (p : Fin 800000) (q : Fin 128), i = ix2 p q := ⟨i 0, i 1, eq_ix2 i⟩
    have ht : p.val / 6400 < cfg0.N := hN ▸ Nat.div_lt_of_lt_mul p.isLt
    refine ⟨⟨_, ht⟩, flush0_4 _, ?_⟩
    rw [← emb0_4 ⟨_, ht⟩ ⟨p.val % 6400, Nat.mod_lt _ (by decide)⟩ q p (Nat.div_add_mod' p.val 6400).symm]
    exact View.emb_mem_set _ _

-- 125 blocks of 6400 rows are all 800000 rows.
theorem blocks0_total (w : EReal → EReal) (c : Dev nD) (j : Fin 128) :
    ∑ t : Fin (124 + 1), ∑ r : Fin 6400, w (blk0 V c ⟨t.val, Nat.lt_of_lt_of_eq t.isLt N_0.symm⟩ r j)
      = ∑ e : Fin 800000, w (hid0 V c e j) :=
  ((Spec.sum_blocks 125 6400 fun e => w (hid0 V c e j)).trans (Finset.sum_congr rfl fun t _ =>
    Finset.sum_congr rfl fun r _ => congrArg w (hblk0_row V c ⟨t.val, _⟩ r j _ rfl).symm)).symm

abbrev tlast0 : Fin cfg0.N := ⟨124, by rw [show cfg0.N = 125 from N_0]; decide⟩

theorem eq_tlast0 (t : Fin cfg0.N) (h : t.val % 125 = 124) : t = tlast0 := by
  have ht : t.val < 125 := lt_of_lt_of_eq t.isLt N_0
  exact Fin.ext (by show t.val = 124; omega)

-- One block, the last point's, covers the whole array.
theorem arr0_5 (c : Dev nD) : (dat0 (F := Ideal) V c).arrAt 5 cfg0.N = (acc0 V c 124 tlast0.isLt).1 :=
  (dat0 V c).arrAt_eq_of_cover 5 _ (fun t hf => by
    obtain rfl := eq_tlast0 t ((flush0_5 t).mp hf)
    show (cfg0.win 5).cut (grid0.coords tlast0) ((dat0 V c).after 5 tlast0) = _
    rw [after0_5]
    exact funext fun (y : S1x128.Idx) => (congrArg (acc0 V c 124 tlast0.isLt).1 (emb0_5 tlast0 y)).symm)
    fun (i : S1x128.Idx) => ⟨tlast0, (flush0_5 _).mpr rfl, by rw [← emb0_5 tlast0 i]; exact View.emb_mem_set _ _⟩

theorem arr0_6 (c : Dev nD) : (dat0 (F := Ideal) V c).arrAt 6 cfg0.N = (acc0 V c 124 tlast0.isLt).2 :=
  (dat0 V c).arrAt_eq_of_cover 6 _ (fun t hf => by
    obtain rfl := eq_tlast0 t ((flush0_6 t).mp hf)
    show (cfg0.win 6).cut (grid0.coords tlast0) ((dat0 V c).after 6 tlast0) = _
    rw [after0_6]
    exact funext fun (y : S1x128.Idx) => (congrArg (acc0 V c 124 tlast0.isLt).2 (emb0_6 tlast0 y)).symm)
    fun (i : S1x128.Idx) => ⟨tlast0, (flush0_6 _).mpr rfl, by rw [← emb0_6 tlast0 i]; exact View.emb_mem_set _ _⟩

theorem final0_5 (c : Dev nD) : Spec.row0 ((dat0 (F := Ideal) V c).arrAt 5 cfg0.N)
    = Spec.colSum (Spec.lin (Spec.cat (Spec.mat (V c main_v10 : S800000x64.Idx → EReal)) (Spec.mat (V c main_arg2 : S800000x32.Idx → EReal)))
        (Spec.mat (V c main_arg5 : S96x128.Idx → EReal)) (Spec.vec (V c main_arg6 : S128.Idx → EReal))) := by
  rw [arr0_5]
  funext j
  exact (run_sum (fun t => ∑ r : Fin 6400, blk0 V c t r j) (fun n hn => (acc0 V c n hn).1 (ix2 0 j))
    (k0_pay1_apply j) (fun hn => k0_pay4_apply _ _ _ _ _ j) (fun n hn => k0_pay4_apply _ _ _ _ _ j) 124 tlast0.isLt).trans (blocks0_total V (fun x => x) c j)

theorem final0_6 (c : Dev nD) : Spec.row0 ((dat0 (F := Ideal) V c).arrAt 6 cfg0.N)
    = Spec.colSumSq (Spec.lin (Spec.cat (Spec.mat (V c main_v10 : S800000x64.Idx → EReal)) (Spec.mat (V c main_arg2 : S800000x32.Idx → EReal)))
        (Spec.mat (V c main_arg5 : S96x128.Idx → EReal)) (Spec.vec (V c main_arg6 : S128.Idx → EReal))) := by
  rw [arr0_6]
  funext j
  exact (run_sum (fun t => ∑ r : Fin 6400, blk0 V c t r j * blk0 V c t r j) (fun n hn => (acc0 V c n hn).2 (ix2 0 j))
    (k0_pay2_apply j) (fun hn => k0_pay5_apply _ _ _ _ _ j) (fun n hn => k0_pay5_apply _ _ _ _ _ j) 124 tlast0.isLt).trans (blocks0_total V (fun x => x * x) c j)

end Cert.KernelIdeal.Hand

end
-- ==== Proof.KI.Pay1.lean ====
import proofs.«128199_j65335042507073_1_alg».proof.Proof.Gen.KernelIdeal.Skeleton
import proofs.«128199_j65335042507073_1_alg».proof.Proof.Spec
import Idealize.ShloMosaic.Lib.StackMember
import Idealize.ShloMosaic.Lib.ValueLayout

noncomputable section

namespace Cert.KernelIdeal.Hand

open Cert.KernelIdeal Cert.KernelIdeal.Gen Idealize.ShloMosaic Idealize.ShloMosaic.ValueIdx

-- The zero accumulator adds nothing, and the one contracted axis is indexed by its coordinate.
theorem matmul_plain_apply {m k n : ℕ} (a : FVec Ideal ⟨2, ![m, k]⟩ .bf16) (w : FVec Ideal ⟨2, ![k, n]⟩ .bf16) (r : Fin m) (j : Fin n) :
    matmul (DotDims.plain m k n) none a w (constant _ .f32 0x00000000#32) (ix2 r j) = ∑ c : Fin k, a (ix2 r c) * w (ix2 c j) :=
  (congrFun (matmul_zero_eq_dotGeneral _ _ a w) _).trans (StackMember.dotGeneral_plain_apply none a w r j)

theorem rsqrt_apply {s : Shape} {φ : FTy} (a : FVec Ideal s φ) (i : s.Idx) : rsqrt a i = Ideal.rsqrt (a i) := rfl

-- Every step acts entry by entry or along a row, so entry (r, j) is read off step by step; the sizes play no part.
theorem pay_apply {m h n : ℕ} (eps : BitVec 32) (v0 : Vec Ideal ⟨2, ![m, h]⟩ .f32) (v2 : Vec Ideal ⟨1, ![h]⟩ .f32)
    (v4 v10 : Vec Ideal ⟨2, ![1, h]⟩ .f32) (v17 : Vec Ideal ⟨1, ![h]⟩ .f32) (v24 : Vec Ideal ⟨2, ![h, n]⟩ .f32)
    (v27 : Vec Ideal ⟨1, ![n]⟩ .f32) (c0 c1 c2 c3 b1 b2 lt) (r : Fin m) (j : Fin n) :
    addf (F := Ideal) (matmul (DotDims.plain m h n) none
        (truncf .bf16 (maximumf (addf (mulf (mulf (broadcastTo ⟨2, ![m, h]⟩ (shapeCast ⟨2, ![1, h]⟩ v2 c1) b1)
            (subf (shapeCast ⟨2, ![m, h]⟩ v0 c0) (broadcastTo ⟨2, ![m, h]⟩ (shapeCast ⟨2, ![1, h]⟩ v4 c2) b1)))
          (broadcastTo ⟨2, ![m, h]⟩ (rsqrt (addf (shapeCast ⟨2, ![1, h]⟩ v10 c2) (broadcast ⟨2, ![1, h]⟩ (Scalar.ofBits .f32 eps)))) b1))
          (broadcastTo ⟨2, ![m, h]⟩ (shapeCast ⟨2, ![1, h]⟩ v17 c1) b1)) (broadcast ⟨2, ![m, h]⟩ (Scalar.ofBits .f32 0x00000000#32))) lt)
        (truncf .bf16 v24 lt) (constant ⟨2, ![m, n]⟩ .f32 0x00000000#32))
      (broadcastTo ⟨2, ![m, n]⟩ (shapeCast ⟨2, ![1, n]⟩ v27 c3) b2) (ix2 r j)
      = Spec.lin (Spec.actK (Ideal.ofBits .f32 eps) (Spec.vec v2) (Spec.vec v17) (Spec.row0 v4) (Spec.row0 v10) (Spec.mat v0))
          (Spec.mat v24) (Spec.vec v27) r j := by
  rw [addf_apply, matmul_plain_apply, broadcastTo_1b_ab_apply, shapeCast_a_1a_apply]
  refine congrArg (· + _) (Finset.sum_congr rfl fun k _ => ?_)
  simp only [truncf_apply, maximumf_apply, addf_apply, mulf_apply, subf_apply, broadcast_apply, broadcastTo_1b_ab_apply,
    shapeCast_a_1a_apply, shapeCast_self, rsqrt_apply, Ideal.ofBits_def, Ideal.ofBits_zero_f32]
  rfl

-- Entry (e, j) is an expression in exactly the entries the hypotheses equate.
theorem lin_act_congr {n n' K H : ℕ} (eps : EReal) {g g' be be' mean mean' var var' : Fin K → EReal} {h : Fin n → Fin K → EReal}
    {h' : Fin n' → Fin K → EReal} {W W' : Fin K → Fin H → EReal} {b b' : Fin H → EReal} {e : Fin n} {e' : Fin n'} {j : Fin H}
    (hg : ∀ k, g k = g' k) (hbe : ∀ k, be k = be' k) (hmean : ∀ k, mean k = mean' k) (hvar : ∀ k, var k = var' k)
    (hrow : ∀ k, h e k = h' e' k) (hW : ∀ k, W k j = W' k j) (hb : b j = b' j) :
    Spec.lin (Spec.actK eps g be mean var h) W b e j = Spec.lin (Spec.actK eps g' be' mean' var' h') W' b' e' j := by
  unfold Spec.lin Spec.actK
  simp only [hg, hbe, hmean, hvar, hrow, hW, hb]

-- The offset on each axis is index · size = 0, so the embedding keeps every coordinate.
theorem emb_eq_self {sig : RefSig} {G : Pipeline.Grid} (w : Pipeline.Window sig G) (t : Fin G.N) (h : ∀ a, w.index t a = 0)
    (y : (w.xblock (G.coords t)).Idx) (y' : w.shape.Idx) (hy : ∀ a, (y a : ℕ) = y' a) : (w.rect t).emb y = y' :=
  funext fun a => Fin.ext ((w.rect_emb_val_of_index_zero t a (h a) y).trans (hy a))

-- Division with remainder: x / B · B ≤ x < x / B · B + B; on the other axis the one block is everything.
theorem rows_cover {B C : ℕ} (hB : 0 < B) (idx x : Fin 2 → ℕ) (h0 : idx 0 = x 0 / B) (h1 : idx 1 = 0) (hx : x 1 < C) (a : Fin 2) :
    idx a * ![B, C] a ≤ x a ∧ x a < idx a * ![B, C] a + ![B, C] a :=
  match a with
  | ⟨0, _⟩ => by show idx 0 * B ≤ x 0 ∧ x 0 < idx 0 * B + B; rw [h0]; exact ⟨Nat.div_mul_le_self _ _, Nat.lt_div_mul_add hB⟩
  | ⟨1, _⟩ => by show idx 1 * C ≤ x 1 ∧ x 1 < idx 1 * C + C; rw [h1]; omega

end Cert.KernelIdeal.Hand

end
-- ==== Proof.KI.Val1.lean ====
import proofs.«128199_j65335042507073_1_alg».proof.Proof.KI.Reg1
import proofs.«128199_j65335042507073_1_alg».proof.Proof.KI.Pay1

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx1 : ∀ t : Fin cfg1.N,
    win1_7.index t 0 = t.val ∧ win1_7.index t 1 = 0 ∧ win1_0.index t 0 = t.val ∧ win1_0.index t 1 = 0
    ∧ (∀ a, win1_1.index t a = 0) ∧ (∀ a, win1_2.index t a = 0) ∧ (∀ a, win1_3.index t a = 0)
    ∧ (∀ a, win1_4.index t a = 0) ∧ (∀ a, win1_5.index t a = 0) ∧ (∀ a, win1_6.index t a = 0) :=
  (by decide +kernel : ∀ t : Fin grid1.N, _)

-- Row e of the array is in the block of point e / 6400.
theorem cover1 (i : S800000x128.Idx) :
    ∃ t : Fin cfg1.N, (cfg1.win 7).flush t = true ∧ i ∈ ((cfg1.win 7).blk t).view.set := by
  have hi : (i 0).val < 800000 := (i 0).isLt
  have hN : cfg1.N = 125 := N_1
  let t : Fin cfg1.N := ⟨(i 0).val / 6400, by rw [hN]; omega⟩
  obtain ⟨e0, e1, -⟩ := idx1 t
  refine ⟨t, flush1_7 t, ?_⟩
  show i ∈ ((View.whole main_v18).slice (win1_7.rect t)).set
  rw [View.set_slice_whole, Rect.mem_set_unit]
  exact rows_cover (by decide) _ (fun a => (i a).val) e0 e1 (i 1).isLt

-- Row r of point t's block is row 6400·t + r of the arrays, and an output row reads the hidden rows through that row alone.
theorem final1 (c : Dev nD) : (dat1 (F := Ideal) V c).arrAt 7 cfg1.N
    = Spec.unmat (Spec.lin (Spec.actK (Ideal.ofBits .f32 0x3727C5AC#32) (Spec.vec (V c main_arg7 : S128.Idx → EReal))
        (Spec.vec (V c main_arg8 : S128.Idx → EReal)) (Spec.row0 (V c main_v13 : S1x128.Idx → EReal))
        (Spec.row0 (V c main_v17 : S1x128.Idx → EReal)) (Spec.mat (V c main_v11_0 : S800000x128.Idx → EReal)))
        (Spec.mat (V c main_arg9 : S128x128.Idx → EReal)) (Spec.vec (V c main_arg10 : S128.Idx → EReal))) := by
  refine (dat1 V c).arrAt_eq_of_cover 7 _ (fun t _ => ?_) cover1
  obtain ⟨e0, e1, f0, f1, h1, h2, h3, h4, h5, h6⟩ := idx1 t
  show (cfg1.win 7).cut (grid1.coords t) ((dat1 V c).after 7 t) = _
  rw [after1_7, out1_7_eq]
  funext (y : S6400x128.Idx)
  obtain ⟨r, j, rfl⟩ : ∃ (r : Fin 6400) (j : Fin 128), y = ix2 r j := ⟨y 0, y 1, eq_ix2 y⟩
  have ht : t.val < 125 := lt_of_lt_of_eq t.isLt N_1
  have hr : r.val < 6400 := r.isLt
  have he : ((cfg1.win 7).blk t).view.emb (ix2 r j) = ix2 ⟨6400 * t.val + r.val, by omega⟩ j :=
    Shape.idx_ext₂ (by show win1_7.index t 0 * 6400 + 1 * r.val = 6400 * t.val + r.val; rw [e0]; omega)
      (by show win1_7.index t 1 * 128 + 1 * j.val = j.val; rw [e1]; omega)
  show k1_pay1 (F := Ideal) _ _ _ _ _ _ _ (ix2 r j) = _
  rw [View.read_apply, he]
  exact (pay_apply _ _ _ _ _ _ _ _ _ _ _ _ _ _ _ r j).trans (lin_act_congr _
    (fun k => congrArg (V c main_arg7) (emb_eq_self win1_3 t h3 (ix1 k) (ix1 k) fun _ => rfl))
    (fun k => congrArg (V c main_arg8) (emb_eq_self win1_4 t h4 (ix1 k) (ix1 k) fun _ => rfl))
    (fun k => congrArg (V c main_v13) (emb_eq_self win1_1 t h1 (ix2 0 k) (ix2 0 k) fun _ => rfl))
    (fun k => congrArg (V c main_v17) (emb_eq_self win1_2 t h2 (ix2 0 k) (ix2 0 k) fun _ => rfl))
    (fun k => congrArg (V c main_v11_0) (Shape.idx_ext₂ (y := ix2 ⟨6400 * t.val + r.val, by omega⟩ k)
      (by show win1_0.index t 0 * 6400 + 1 * r.val = 6400 * t.val + r.val; rw [f0]; omega)
      (by show win1_0.index t 1 * 128 + 1 * k.val = k.val; rw [f1]; omega)))
    (fun k => congrArg (V c main_arg9) (emb_eq_self win1_5 t h5 (ix2 k j) (ix2 k j) fun _ => rfl))
    (congrArg (V c main_arg10) (emb_eq_self win1_6 t h6 (ix1 j) (ix1 j) fun _ => rfl)))

end Cert.KernelIdeal.Hand

end
-- ==== Proof.KI.Pay2.lean ====
import proofs.«128199_j65335042507073_1_alg».proof.Proof.KI.Pay0

noncomputable section

namespace Cert.KernelIdeal.Hand

open Cert.KernelIdeal Cert.KernelIdeal.Gen Idealize.ShloMosaic Idealize.ShloMosaic.ValueIdx

variable (v3 : Vec Ideal S5000x64 .f32) (v4 : Vec Ideal S5000x128 .f32) (v8 : Vec Ideal S192x128 .f32) (v11 : Vec Ideal S128 .f32)

abbrev hblk2 : Fin 5000 → Fin 128 → EReal :=
  Spec.lin (Spec.cat (Spec.mat v3) (Spec.mat v4)) (Spec.mat v8) (Spec.vec v11)

theorem k2_pay3_apply (r : Fin 5000) (j : Fin 128) :
    k2_pay3 (F := Ideal) v3 v4 v8 v11 (ix2 r j) = hblk2 v3 v4 v8 v11 r j := by
  unfold k2_pay3
  rw [shapeCast_self]
  exact hid_apply (A := 64) (B := 128) v3 v4 v8 v11 _ _ _ r j

theorem k2_pay4_apply (v16 : Vec Ideal S1x128 .f32) (j : Fin 128) :
    k2_pay4 (F := Ideal) v3 v4 v8 v11 v16 (ix2 0 j) = v16 (ix2 0 j) + ∑ r : Fin 5000, hblk2 v3 v4 v8 v11 r j := by
  unfold k2_pay4
  rw [shapeCast_self]
  exact (acc_apply _ v16 _ _ _ _ j).trans (by simp only [k2_pay3_apply])

theorem k2_pay5_apply (v23 : Vec Ideal S1x128 .f32) (j : Fin 128) :
    k2_pay5 (F := Ideal) v3 v4 v8 v11 v23 (ix2 0 j)
      = v23 (ix2 0 j) + ∑ r : Fin 5000, hblk2 v3 v4 v8 v11 r j * hblk2 v3 v4 v8 v11 r j := by
  unfold k2_pay5
  rw [shapeCast_self]
  exact (acc_apply _ v23 _ _ _ _ j).trans (by simp only [mulf_apply, k2_pay3_apply])

theorem k2_pay1_apply (j : Fin 128) : k2_pay1 (F := Ideal) (ix2 0 j) = 0 := by
  unfold k2_pay1
  rw [shapeCast_self]
  exact Ideal.ofBits_zero_f32

theorem k2_pay2_apply (j : Fin 128) : k2_pay2 (F := Ideal) (ix2 0 j) = 0 := by
  unfold k2_pay2
  rw [shapeCast_self]
  exact Ideal.ofBits_zero_f32

end Cert.KernelIdeal.Hand

end
-- ==== Proof.KI.Val2.lean ====
import proofs.«128199_j65335042507073_1_alg».proof.Proof.KI.Reg2
import proofs.«128199_j65335042507073_1_alg».proof.Proof.KI.Pay2
import proofs.«128199_j65335042507073_1_alg».proof.Proof.KI.Val0

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

-- Decided point by point over the grid.
theorem idx2_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_4.index t (0 : Fin 2) = t.val ∧ win2_4.index t (1 : Fin 2) = 0)
    ∧ (∀ a : Fin 2, win2_2.index t a = 0) ∧ (∀ a : Fin 1, win2_3.index t a = 0)
    ∧ (∀ a : Fin 2, win2_5.index t a = 0) ∧ (∀ a : Fin 2, win2_6.index t a = 0) :=
  (by decide +kernel : ∀ t : Fin grid2.N, _)

-- Block t of a row-blocked window starts at row 5000·t of its array.
theorem emb2_0 (t : Fin cfg2.N) (r : Fin 5000) (k : Fin 64) (e : Fin 50000) (he : e.val = t.val * 5000 + r.val) :
    (((cfg2.win 0).blk t).view.emb (ix2 r k) : S50000x64.Idx) = ix2 e k :=
  ext2 ((win2_0.rect_emb_val t _ (0 : Fin 2)).trans (by rw [(idx2_facts t).1.1]; exact he.symm))
    (win2_0.rect_emb_val_of_index_zero t (1 : Fin 2) (idx2_facts t).1.2 _)

theorem emb2_1 (t : Fin cfg2.N) (r : Fin 5000) (k : Fin 128) (e : Fin 50000) (he : e.val = t.val * 5000 + r.val) :
    (((cfg2.win 1).blk t).view.emb (ix2 r k) : S50000x128.Idx) = ix2 e k :=
  ext2 ((win2_1.rect_emb_val t _ (0 : Fin 2)).trans (by rw [(idx2_facts t).2.1.1]; exact he.symm))
    (win2_1.rect_emb_val_of_index_zero t (1 : Fin 2) (idx2_facts t).2.1.2 _)

theorem emb2_4 (t : Fin cfg2.N) (r : Fin 5000) (k : Fin 128) (e : Fin 50000) (he : e.val = t.val * 5000 + r.val) :
    (((cfg2.win 4).blk t).view.emb (ix2 r k) : S50000x128.Idx) = ix2 e k :=
  ext2 ((win2_4.rect_emb_val t _ (0 : Fin 2)).trans (by rw [(idx2_facts t).2.2.1.1]; exact he.symm))
    (win2_4.rect_emb_val_of_index_zero t (1 : Fin 2) (idx2_facts t).2.2.1.2 _)

-- A window of one block: the block is the whole array.
theorem emb2_2 (t : Fin cfg2.N) (y : S192x128.Idx) : (((cfg2.win 2).blk t).view.emb y : S192x128.Idx) = y :=
  funext fun a => Fin.ext (win2_2.rect_emb_val_of_index_zero t a ((idx2_facts t).2.2.2.1 a) y)

theorem emb2_3 (t : Fin cfg2.N) (y : S128.Idx) : (((cfg2.win 3).blk t).view.emb y : S128.Idx) = y :=
  funext fun a => Fin.ext (win2_3.rect_emb_val_of_index_zero t a ((idx2_facts t).2.2.2.2.1 a) y)

theorem emb2_5 (t : Fin cfg2.N) (y : S1x128.Idx) : (((cfg2.win 5).blk t).view.emb y : S1x128.Idx) = y :=
  funext fun a => Fin.ext (win2_5.rect_emb_val_of_index_zero t a ((idx2_facts t).2.2.2.2.2.1 a) y)

theorem emb2_6 (t : Fin cfg2.N) (y : S1x128.Idx) : (((cfg2.win 6).blk t).view.emb y : S1x128.Idx) = y :=
  funext fun a => Fin.ext (win2_6.rect_emb_val_of_index_zero t a ((idx2_facts t).2.2.2.2.2.2 a) y)

abbrev hid2 (c : Dev nD) : Fin 50000 → Fin 128 → EReal :=
  Spec.lin (Spec.cat (Spec.mat (V c main_arg0 : S50000x64.Idx → EReal)) (Spec.mat (V c main_v21 : S50000x128.Idx → EReal)))
        (Spec.mat (V c main_arg11 : S192x128.Idx → EReal)) (Spec.vec (V c main_arg12 : S128.Idx → EReal))

abbrev blk2 (c : Dev nD) (t : Fin cfg2.N) : Fin 5000 → Fin 128 → EReal :=
  hblk2 (iblk2 V c 0 t) (iblk2 V c 1 t) (iblk2 V c 2 t) (iblk2 V c 3 t)

-- The block's rows are rows 5000·t + r of the two row-blocked arrays; the weights and the bias are read whole.
theorem hblk2_row (c : Dev nD) (t : Fin cfg2.N) (r : Fin 5000) (j : Fin 128) (e : Fin 50000)
    (he : e.val = t.val * 5000 + r.val) : blk2 V c t r j = hid2 V c e j :=
  lin_cat_row r e j (fun k => by unfold iblk2; exact congrArg (V c main_arg0) (emb2_0 t r k e he))
    (fun k => by unfold iblk2; exact congrArg (V c main_v21) (emb2_1 t r k e he))
    (congrArg Spec.mat (funext fun x => by unfold iblk2; exact congrArg (V c main_arg11) (emb2_2 t x)))
    (congrArg Spec.vec (funext fun x => by unfold iblk2; exact congrArg (V c main_arg12) (emb2_3 t x)))

theorem final2_4 (c : Dev nD) : (dat2 (F := Ideal) V c).arrAt 4 cfg2.N
    = Spec.unmat (Spec.lin (Spec.cat (Spec.mat (V c main_arg0 : S50000x64.Idx → EReal)) (Spec.mat (V c main_v21 : S50000x128.Idx → EReal)))
        (Spec.mat (V c main_arg11 : S192x128.Idx → EReal)) (Spec.vec (V c main_arg12 : S128.Idx → EReal))) := by
  have hN : cfg2.N = 10 := N_2
  refine (dat2 V c).arrAt_eq_of_cover 4 (Spec.unmat (hid2 V c)) (fun t _ => ?_) fun (i : S50000x128.Idx) => ?_
  · show (cfg2.win 4).cut (grid2.coords t) ((dat2 V c).after 4 t) = _
    rw [after2_4_eq]
    funext (y : S5000x128.Idx)
    obtain ⟨r, j, rfl⟩ : ∃ (r : Fin 5000) (j : Fin 128), y = ix2 r j := ⟨y 0, y 1, eq_ix2 y⟩
    show k2_pay3 (F := Ideal) (iblk2 V c 0 t) (iblk2 V c 1 t) (iblk2 V c 2 t) (iblk2 V c 3 t) (ix2 r j)
      = Spec.unmat (hid2 V c) (((cfg2.win 4).blk t).view.emb (ix2 r j))
    rw [emb2_4 t r j ⟨t.val * 5000 + r.val, by have := lt_of_lt_of_eq t.isLt N_2; have := r.isLt; omega⟩ rfl, k2_pay3_apply]
    exact hblk2_row V c t r j _ rfl
  · obtain ⟨p, q, rfl⟩ : ∃ (p : Fin 50000) (q : Fin 128), i = ix2 p q := ⟨i 0, i 1, eq_ix2 i⟩
    have ht : p.val / 5000 < cfg2.N := hN ▸ Nat.div_lt_of_lt_mul p.isLt
    refine ⟨⟨_, ht⟩, flush2_4 _, ?_⟩
    rw [← emb2_4 ⟨_, ht⟩ ⟨p.val % 5000, Nat.mod_lt _ (by decide)⟩ q p (Nat.div_add_mod' p.val 5000).symm]
    exact View.emb_mem_set _ _

-- 10 blocks of 5000 rows are all 50000 rows.
theorem blocks2_total (w : EReal → EReal) (c : Dev nD) (j : Fin 128) :
    ∑ t : Fin (9 + 1), ∑ r : Fin 5000, w (blk2 V c ⟨t.val, Nat.lt_of_lt_of_eq t.isLt N_2.symm⟩ r j)
      = ∑ e : Fin 50000, w (hid2 V c e j) :=
  ((Spec.sum_blocks 10 5000 fun e => w (hid2 V c e j)).trans (Finset.sum_congr rfl fun t _ =>
    Finset.sum_congr rfl fun r _ => congrArg w (hblk2_row V c ⟨t.val, _⟩ r j _ rfl).symm)).symm

abbrev tlast2 : Fin cfg2.N := ⟨9, by rw [show cfg2.N = 10 from N_2]; decide⟩

theorem eq_tlast2 (t : Fin cfg2.N) (h : t.val % 10 = 9) : t = tlast2 := by
  have ht : t.val < 10 := lt_of_lt_of_eq t.isLt N_2
  exact Fin.ext (by show t.val = 9; omega)

-- One block, the last point's, covers the whole array.
theorem arr2_5 (c : Dev nD) : (dat2 (F := Ideal) V c).arrAt 5 cfg2.N = (acc2 V c 9 tlast2.isLt).1 :=
  (dat2 V c).arrAt_eq_of_cover 5 _ (fun t hf => by
    obtain rfl := eq_tlast2 t ((flush2_5 t).mp hf)
    show (cfg2.win 5).cut (grid2.coords tlast2) ((dat2 V c).after 5 tlast2) = _
    rw [after2_5]
    exact funext fun (y : S1x128.Idx) => (congrArg (acc2 V c 9 tlast2.isLt).1 (emb2_5 tlast2 y)).symm)
    fun (i : S1x128.Idx) => ⟨tlast2, (flush2_5 _).mpr rfl, by rw [← emb2_5 tlast2 i]; exact View.emb_mem_set _ _⟩

theorem arr2_6 (c : Dev nD) : (dat2 (F := Ideal) V c).arrAt 6 cfg2.N = (acc2 V c 9 tlast2.isLt).2 :=
  (dat2 V c).arrAt_eq_of_cover 6 _ (fun t hf => by
    obtain rfl := eq_tlast2 t ((flush2_6 t).mp hf)
    show (cfg2.win 6).cut (grid2.coords tlast2) ((dat2 V c).after 6 tlast2) = _
    rw [after2_6]
    exact funext fun (y : S1x128.Idx) => (congrArg (acc2 V c 9 tlast2.isLt).2 (emb2_6 tlast2 y)).symm)
    fun (i : S1x128.Idx) => ⟨tlast2, (flush2_6 _).mpr rfl, by rw [← emb2_6 tlast2 i]; exact View.emb_mem_set _ _⟩

theorem final2_5 (c : Dev nD) : Spec.row0 ((dat2 (F := Ideal) V c).arrAt 5 cfg2.N)
    = Spec.colSum (Spec.lin (Spec.cat (Spec.mat (V c main_arg0 : S50000x64.Idx → EReal)) (Spec.mat (V c main_v21 : S50000x128.Idx → EReal)))
        (Spec.mat (V c main_arg11 : S192x128.Idx → EReal)) (Spec.vec (V c main_arg12 : S128.Idx → EReal))) := by
  rw [arr2_5]
  funext j
  exact (run_sum (fun t => ∑ r : Fin 5000, blk2 V c t r j) (fun n hn => (acc2 V c n hn).1 (ix2 0 j))
    (k2_pay1_apply j) (fun hn => k2_pay4_apply _ _ _ _ _ j) (fun n hn => k2_pay4_apply _ _ _ _ _ j) 9 tlast2.isLt).trans (blocks2_total V (fun x => x) c j)

theorem final2_6 (c : Dev nD) : Spec.row0 ((dat2 (F := Ideal) V c).arrAt 6 cfg2.N)
    = Spec.colSumSq (Spec.lin (Spec.cat (Spec.mat (V c main_arg0 : S50000x64.Idx → EReal)) (Spec.mat (V c main_v21 : S50000x128.Idx → EReal)))
        (Spec.mat (V c main_arg11 : S192x128.Idx → EReal)) (Spec.vec (V c main_arg12 : S128.Idx → EReal))) := by
  rw [arr2_6]
  funext j
  exact (run_sum (fun t => ∑ r : Fin 5000, blk2 V c t r j * blk2 V c t r j) (fun n hn => (acc2 V c n hn).2 (ix2 0 j))
    (k2_pay2_apply j) (fun hn => k2_pay5_apply _ _ _ _ _ j) (fun n hn => k2_pay5_apply _ _ _ _ _ j) 9 tlast2.isLt).trans (blocks2_total V (fun x => x * x) c j)

end Cert.KernelIdeal.Hand

end
-- ==== Proof.KI.Val3.lean ====
import proofs.«128199_j65335042507073_1_alg».proof.Proof.KI.Reg3
import proofs.«128199_j65335042507073_1_alg».proof.Proof.KI.Pay1

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx3 : ∀ t : Fin cfg3.N,
    win3_7.index t 0 = t.val ∧ win3_7.index t 1 = 0 ∧ win3_0.index t 0 = t.val ∧ win3_0.index t 1 = 0
    ∧ (∀ a, win3_1.index t a = 0) ∧ (∀ a, win3_2.index t a = 0) ∧ (∀ a, win3_3.index t a = 0)
    ∧ (∀ a, win3_4.index t a = 0) ∧ (∀ a, win3_5.index t a = 0) ∧ (∀ a, win3_6.index t a = 0) :=
  (by decide +kernel : ∀ t : Fin grid3.N, _)

-- Row e of the array is in the block of point e / 5000.
theorem cover3 (i : S50000x64.Idx) :
    ∃ t : Fin cfg3.N, (cfg3.win 7).flush t = true ∧ i ∈ ((cfg3.win 7).blk t).view.set := by
  have hi : (i 0).val < 50000 := (i 0).isLt
  have hN : cfg3.N = 10 := rfl
  let t : Fin cfg3.N := ⟨(i 0).val / 5000, by rw [hN]; omega⟩
  obtain ⟨e0, e1, -⟩ := idx3 t
  refine ⟨t, flush3_7 t, ?_⟩
  show i ∈ ((View.whole main_v29).slice (win3_7.rect t)).set
  rw [View.set_slice_whole, Rect.mem_set_unit]
  exact rows_cover (by decide) _ (fun a => (i a).val) e0 e1 (i 1).isLt

-- Row r of point t's block is row 5000·t + r of the arrays, and an output row reads the hidden rows through that row alone.
theorem final3 (c : Dev nD) : (dat3 (F := Ideal) V c).arrAt 7 cfg3.N
    = Spec.unmat (Spec.lin (Spec.actK (Ideal.ofBits .f32 0x3727C5AC#32) (Spec.vec (V c main_arg13)) (Spec.vec (V c main_arg14))
        (Spec.row0 (V c main_v24)) (Spec.row0 (V c main_v28)) (Spec.mat (V c main_v22_0))) (Spec.mat (V c main_arg15))
        (Spec.vec (V c main_arg16))) := by
  refine (dat3 V c).arrAt_eq_of_cover 7 _ (fun t _ => ?_) cover3
  obtain ⟨e0, e1, f0, f1, h1, h2, h3, h4, h5, h6⟩ := idx3 t
  show (cfg3.win 7).cut (grid3.coords t) ((dat3 V c).after 7 t) = _
  rw [after3_7, out3_7_eq]
  funext (y : S5000x64.Idx)
  obtain ⟨r, j, rfl⟩ : ∃ (r : Fin 5000) (j : Fin 64), y = ix2 r j := ⟨y 0, y 1, eq_ix2 y⟩
  have ht : t.val < 10 := t.isLt
  have hr : r.val < 5000 := r.isLt
  have he : ((cfg3.win 7).blk t).view.emb (ix2 r j) = ix2 ⟨5000 * t.val + r.val, by omega⟩ j :=
    Shape.idx_ext₂ (by show win3_7.index t 0 * 5000 + 1 * r.val = 5000 * t.val + r.val; rw [e0]; omega)
      (by show win3_7.index t 1 * 64 + 1 * j.val = j.val; rw [e1]; omega)
  show k3_pay1 (F := Ideal) _ _ _ _ _ _ _ (ix2 r j) = _
  rw [View.read_apply, he]
  exact (pay_apply _ _ _ _ _ _ _ _ _ _ _ _ _ _ _ r j).trans (lin_act_congr _
    (fun k => congrArg (V c main_arg13) (emb_eq_self win3_3 t h3 (ix1 k) (ix1 k) fun _ => rfl))
    (fun k => congrArg (V c main_arg14) (emb_eq_self win3_4 t h4 (ix1 k) (ix1 k) fun _ => rfl))
    (fun k => congrArg (V c main_v24) (emb_eq_self win3_1 t h1 (ix2 0 k) (ix2 0 k) fun _ => rfl))
    (fun k => congrArg (V c main_v28) (emb_eq_self win3_2 t h2 (ix2 0 k) (ix2 0 k) fun _ => rfl))
    (fun k => congrArg (V c main_v22_0) (Shape.idx_ext₂ (y := ix2 ⟨5000 * t.val + r.val, by omega⟩ k)
      (by show win3_0.index t 0 * 5000 + 1 * r.val = 5000 * t.val + r.val; rw [f0]; omega)
      (by show win3_0.index t 1 * 128 + 1 * k.val = k.val; rw [f1]; omega)))
    (fun k => congrArg (V c main_arg15) (emb_eq_self win3_5 t h5 (ix2 k j) (ix2 k j) fun _ => rfl))
    (congrArg (V c main_arg16) (emb_eq_self win3_6 t h6 (ix1 j) (ix1 j) fun _ => rfl)))

end Cert.KernelIdeal.Hand

end
-- ==== Proof.KI.Glue.lean ====
import proofs.«128199_j65335042507073_1_alg».proof.Proof.Gen.KernelIdeal.Launch
import proofs.«128199_j65335042507073_1_alg».proof.Proof.Spec
import Idealize.ShloMosaic.Lib.StableHlo.Run
import Idealize.ShloMosaic.Lib.ValueIdx

noncomputable section

namespace Cert.KernelIdeal.Hand

open Cert.KernelIdeal Cert.KernelIdeal.Gen Idealize.ShloMosaic Idealize.ShloMosaic.ValueIdx
open Idealize.ShloMosaic.TcCoe Idealize.ShloMosaic.StableHlo

section AnyFloat

variable {F : FTy → Type} [FloatOps F]

def row1K (a1 : Vec F S2x800000 .i32) : Vec F S800000 .i32 :=
  shapeCast S800000 (extractStridedSlice S1x800000 ![0, 0] a1 slices_S2x800000_S1x800000_0_0) shapeCasts_S1x800000_S800000

def col2K (a1 : Vec F S2x800000 .i32) : Vec F S800000 .i32 :=
  shapeCast S800000 (extractStridedSlice S1x800000 ![1, 0] a1 slices_S2x800000_S1x800000_1_0) shapeCasts_S1x800000_S800000

def xrowK (a0 : Vec F S50000x64 .f32) (a1 : Vec F S2x800000 .i32) : Vec F S800000x64 .f32 :=
  Host.gather gather_S50000x64_S800000x1_S800000x64_1_0_n_n_0_1_164 a0
    (broadcastInDim S800000x1 ![0] bcast_S800000_S800000x1_0
      (select (cmpi .slt (row1K a1) (broadcastInDim S800000 ![] bcast_S_S800000 (constantI S_ 32 0#32)))
        (addi (row1K a1) (broadcastInDim S800000 ![] bcast_S_S800000 (constantI S_ 32 50000#32)))
        (row1K a1)))

def aggK (a1 : Vec F S2x800000 .i32) (u : Vec F S800000x128 .f32) : Vec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 (col2K a1)) u

theorem after0_v10 (V : Valuation τ sig (Elt F)) :
    StableHlo.after hostOps0 V (Proc.devRef .tc main_v10)
      = xrowK (V (Proc.devRef .tc main_arg0)) (V (Proc.devRef .tc main_arg1)) := by
  after_results
  rfl

theorem after0_v3 (V : Valuation τ sig (Elt F)) :
    StableHlo.after hostOps0 V (Proc.devRef .tc main_v3) = col2K (V (Proc.devRef .tc main_arg1)) := by
  after_results
  rfl

theorem after2_v21' (V : Valuation τ sig (Elt F)) (a1 : Vec F S2x800000 .i32)
    (h3 : V (Proc.devRef .tc main_v3) = col2K a1) :
    StableHlo.after hostOps2 V (Proc.devRef .tc main_v21) = aggK a1 (V (Proc.devRef .tc main_v18)) := by
  after_results
  rw [h3]
  rfl

end AnyFloat

theorem after1_v13_row (V : Valuation τ sig (Elt Ideal)) :
    Spec.row0 (StableHlo.after hostOps1 V (Proc.devRef .tc main_v13))
      = Spec.meanOf (Ideal.ofBits .f32 0x49435000#32) (Spec.row0 (V (Proc.devRef .tc main_v11_1))) := by
  after_results
  rfl

theorem after1_v17_row (V : Valuation τ sig (Elt Ideal)) :
    Spec.row0 (StableHlo.after hostOps1 V (Proc.devRef .tc main_v17))
      = Spec.varK (Ideal.ofBits .f32 0x49435000#32) (Spec.row0 (V (Proc.devRef .tc main_v11_1)))
          (Spec.row0 (V (Proc.devRef .tc main_v11_2))) := by
  after_results
  rfl

theorem after3_v24_row (V : Valuation τ sig (Elt Ideal)) :
    Spec.row0 (StableHlo.after hostOps3 V (Proc.devRef .tc main_v24))
      = Spec.meanOf (Ideal.ofBits .f32 0x47435000#32) (Spec.row0 (V (Proc.devRef .tc main_v22_1))) := by
  after_results
  rfl

theorem after3_v28_row (V : Valuation τ sig (Elt Ideal)) :
    Spec.row0 (StableHlo.after hostOps3 V (Proc.devRef .tc main_v28))
      = Spec.varK (Ideal.ofBits .f32 0x47435000#32) (Spec.row0 (V (Proc.devRef .tc main_v22_1)))
          (Spec.row0 (V (Proc.devRef .tc main_v22_2))) := by
  after_results
  rfl

abbrev c1K : EReal := Ideal.ofBits .f32 0x49435000#32
abbrev c2K : EReal := Ideal.ofBits .f32 0x47435000#32
abbrev epsK : EReal := Ideal.ofBits .f32 0x3727C5AC#32

def KOut (a0 : Vec Ideal S50000x64 .f32) (a1 : Vec Ideal S2x800000 .i32) (a2 : Vec Ideal S800000x32 .f32)
    (a5 : Vec Ideal S96x128 .f32) (a6 a7 a8 : Vec Ideal S128 .f32) (a9 : Vec Ideal S128x128 .f32) (a10 : Vec Ideal S128 .f32)
    (a11 : Vec Ideal S192x128 .f32) (a12 a13 a14 : Vec Ideal S128 .f32) (a15 : Vec Ideal S128x64 .f32)
    (a16 : Vec Ideal S64 .f32) : Vec Ideal S50000x64 .f32 :=
  Spec.unmat (Spec.mlpK c2K epsK
    (Spec.cat (Spec.mat a0)
      (Spec.mat (aggK a1 (Spec.unmat (Spec.mlpK c1K epsK (Spec.cat (Spec.mat (xrowK a0 a1)) (Spec.mat a2))
        (Spec.mat a5) (Spec.vec a6) (Spec.vec a7) (Spec.vec a8) (Spec.mat a9) (Spec.vec a10))))))
    (Spec.mat a11) (Spec.vec a12) (Spec.vec a13) (Spec.vec a14) (Spec.mat a15) (Spec.vec a16))

end Cert.KernelIdeal.Hand

end
-- ==== Proof.KI.Value.lean ====
import proofs.«128199_j65335042507073_1_alg».proof.Proof.KI.Run
import proofs.«128199_j65335042507073_1_alg».proof.Proof.KI.Val0
import proofs.«128199_j65335042507073_1_alg».proof.Proof.KI.Val1
import proofs.«128199_j65335042507073_1_alg».proof.Proof.KI.Val2
import proofs.«128199_j65335042507073_1_alg».proof.Proof.KI.Val3
import proofs.«128199_j65335042507073_1_alg».proof.Proof.KI.Glue

noncomputable section

namespace Cert.KernelIdeal.Hand

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (ρ : Dev nD → PrngReg) (c : Dev nD)

namespace Chain

abbrev argAt (b : Ref sig .tc) : Buf (Elt Ideal) ((c : Thread nD τ).loc b) := m ((c : Thread nD τ).loc b)

def hidE : Fin 800000 → Fin 128 → EReal :=
  Spec.lin (Spec.cat (Spec.mat (xrowK (argAt m c main_arg0) (argAt m c main_arg1))) (Spec.mat (argAt m c main_arg2)))
    (Spec.mat (argAt m c main_arg5)) (Spec.vec (argAt m c main_arg6))

def msg : Fin 800000 → Fin 128 → EReal :=
  Spec.mlpK c1K epsK
    (Spec.cat (Spec.mat (xrowK (argAt m c main_arg0) (argAt m c main_arg1))) (Spec.mat (argAt m c main_arg2)))
    (Spec.mat (argAt m c main_arg5)) (Spec.vec (argAt m c main_arg6)) (Spec.vec (argAt m c main_arg7)) (Spec.vec (argAt m c main_arg8))
    (Spec.mat (argAt m c main_arg9)) (Spec.vec (argAt m c main_arg10))

def hidN : Fin 50000 → Fin 128 → EReal :=
  Spec.lin (Spec.cat (Spec.mat (argAt m c main_arg0)) (Spec.mat (aggK (argAt m c main_arg1) (Spec.unmat (msg m c)))))
    (Spec.mat (argAt m c main_arg11)) (Spec.vec (argAt m c main_arg12))

theorem W2_v11 : W2 m ρ c (Proc.devRef .tc main_v11_0) = Spec.unmat (hidE m c)
    ∧ Spec.row0 (W2 m ρ c (Proc.devRef .tc main_v11_1)) = Spec.colSum (hidE m c)
    ∧ Spec.row0 (W2 m ρ c (Proc.devRef .tc main_v11_2)) = Spec.colSumSq (hidE m c) := by
  have arg : ∀ b, b ∈ argRefs → V1 m ρ c b = argAt m c b := W1_arg m ρ c
  have e10 : V1 m ρ c main_v10 = xrowK (argAt m c main_arg0) (argAt m c main_arg1) := after0_v10 (W0 m ρ c)
  show W2 m ρ c (Proc.devRef .tc (Pipeline.arrRef spec0 4)) = _
    ∧ Spec.row0 (W2 m ρ c (Proc.devRef .tc (Pipeline.arrRef spec0 5))) = _
    ∧ Spec.row0 (W2 m ρ c (Proc.devRef .tc (Pipeline.arrRef spec0 6))) = _
  rw [W2_arr, W2_arr, W2_arr, final0_4, final0_5, final0_6, e10, arg main_arg2 (by decide), arg main_arg5 (by decide),
    arg main_arg6 (by decide)]
  exact ⟨rfl, rfl, rfl⟩

theorem W4_v18 : W4 m ρ c (Proc.devRef .tc main_v18) = Spec.unmat (msg m c) := by
  obtain ⟨h0, h1, h2⟩ := W2_v11 m ρ c
  have e11 : V3 m ρ c main_v11_0 = Spec.unmat (hidE m c) := (W3_of m ρ c main_v11_0 (by decide)).trans h0
  have arg : ∀ b, b ∈ argRefs → V3 m ρ c b = argAt m c b := W3_arg m ρ c
  rw [show W4 m ρ c (Proc.devRef .tc main_v18) = (dat1 (V3 m ρ) c).arrAt 7 cfg1.N from W4_arr m ρ c 7,
    final1, show Spec.row0 (V3 m ρ c main_v13) = _ from after1_v13_row (W2 m ρ c),
    show Spec.row0 (V3 m ρ c main_v17) = _ from after1_v17_row (W2 m ρ c), h1, h2, e11, Spec.mat_unmat,
    arg main_arg7 (by decide), arg main_arg8 (by decide), arg main_arg9 (by decide), arg main_arg10 (by decide)]
  rfl

theorem W6_v22 : W6 m ρ c (Proc.devRef .tc main_v22_0) = Spec.unmat (hidN m c)
    ∧ Spec.row0 (W6 m ρ c (Proc.devRef .tc main_v22_1)) = Spec.colSum (hidN m c)
    ∧ Spec.row0 (W6 m ρ c (Proc.devRef .tc main_v22_2)) = Spec.colSumSq (hidN m c) := by
  have e3 : W4 m ρ c (Proc.devRef .tc main_v3) = col2K (argAt m c main_arg1) :=
    (W4_of m ρ c main_v3 (by decide)).trans <| (W3_of m ρ c main_v3 (by decide)).trans <|
      (W2_of m ρ c main_v3 (by decide)).trans <| after0_v3 (W0 m ρ c)
  have e21 : V5 m ρ c main_v21 = aggK (argAt m c main_arg1) (Spec.unmat (msg m c)) := by
    rw [← W4_v18 m ρ c]; exact after2_v21' (W4 m ρ c) (argAt m c main_arg1) e3
  have arg : ∀ b, b ∈ argRefs → V5 m ρ c b = argAt m c b := W5_arg m ρ c
  show W6 m ρ c (Proc.devRef .tc (Pipeline.arrRef spec2 4)) = _
    ∧ Spec.row0 (W6 m ρ c (Proc.devRef .tc (Pipeline.arrRef spec2 5))) = _
    ∧ Spec.row0 (W6 m ρ c (Proc.devRef .tc (Pipeline.arrRef spec2 6))) = _
  rw [W6_arr, W6_arr, W6_arr, final2_4, final2_5, final2_6, e21, arg main_arg0 (by decide), arg main_arg11 (by decide),
    arg main_arg12 (by decide)]
  exact ⟨rfl, rfl, rfl⟩

end Chain

open Chain in
-- Each item's result is substituted into the next, from the launch to the last region.
theorem kernel_value : W8 (F := Ideal) m ρ c (Proc.devRef .tc main_v29)
    = KOut (m ((c : Thread nD τ).loc main_arg0)) (m ((c : Thread nD τ).loc main_arg1)) (m ((c : Thread nD τ).loc main_arg2))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13))
        (m ((c : Thread nD τ).loc main_arg14)) (m ((c : Thread nD τ).loc main_arg15)) (m ((c : Thread nD τ).loc main_arg16)) := by
  obtain ⟨h0, h1, h2⟩ := W6_v22 m ρ c
  have e22 : V7 m ρ c main_v22_0 = Spec.unmat (hidN m c) := (W7_of m ρ c main_v22_0 (by decide)).trans h0
  have arg : ∀ b, b ∈ argRefs → V7 m ρ c b = argAt m c b := W7_arg m ρ c
  rw [show W8 m ρ c (Proc.devRef .tc main_v29) = (dat3 (V7 m ρ) c).arrAt 7 cfg3.N from W8_arr m ρ c 7,
    final3, show Spec.row0 (V7 m ρ c main_v24) = _ from after3_v24_row (W6 m ρ c),
    show Spec.row0 (V7 m ρ c main_v28) = _ from after3_v28_row (W6 m ρ c), h1, h2, e22, Spec.mat_unmat,
    arg main_arg13 (by decide), arg main_arg14 (by decide), arg main_arg15 (by decide), arg main_arg16 (by decide)]
  rfl

end Cert.KernelIdeal.Hand

end
-- ==== Proof.Ref.Run.lean ====
import proofs.«128199_j65335042507073_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev Writes (l : List (HloOp τ sig (Elt F))) (W : List (Ref sig .tc)) : Prop :=
  l.Forall fun op => op.writes ⊆ (W.map (Proc.devRef (τ := τ) .tc)).toFinset

theorem writes_sub_of {W : List (Ref sig .tc)} (op : HloOp τ sig (Elt F)) (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

-- The program's operations in order, each callee's body in place of its call, cut where one block's result feeds the next.
abbrev opsA : List (HloOp τ sig (Elt F)) :=
  [ StableHlo.unary main_arg1 main_v0 (extractStridedSlice S1x800000 ![0, 0] · slices_S2x800000_S1x800000_0_0),
    StableHlo.reshape main_v0 main_v1 rfl shapeCasts_S1x800000_S800000,
    StableHlo.unary main_arg1 main_v2 (extractStridedSlice S1x800000 ![1, 0] · slices_S2x800000_S1x800000_1_0),
    StableHlo.reshape main_v2 main_v3 rfl shapeCasts_S1x800000_S800000,
    StableHlo.nullary main_c (constantI S_ 32 0#32),
    StableHlo.unary main_c main_v4 (broadcastInDim S800000 ![] bcast_S_S800000),
    StableHlo.binary main_v1 main_v4 main_v5 (cmpi .slt),
    StableHlo.nullary main_c_0 (constantI S_ 32 50000#32),
    StableHlo.unary main_c_0 main_v6 (broadcastInDim S800000 ![] bcast_S_S800000),
    StableHlo.binary main_v1 main_v6 main_v7 addi,
    StableHlo.ternary main_v5 main_v7 main_v1 main_v8 select,
    StableHlo.unary main_v8 main_v9 (broadcastInDim S800000x1 ![0] bcast_S800000_S800000x1_0),
    StableHlo.binary main_arg0 main_v9 main_v10 (fun x i => Host.gather gather_S50000x64_S800000x1_S800000x64_1_0_n_n_0_1_164 x i),
    StableHlo.binary main_v10 main_arg2 main_v11 (fun a b => concatenate S800000x96 1 [⟨S800000x64, a⟩, ⟨S800000x32, b⟩] concatenates_S800000x64_S800000x32_S800000x96_d1) ]
abbrev opsA_W : List (Ref sig .tc) :=
  [ main_v0, main_v1, main_v2, main_v3, main_c, main_v4, main_v5, main_c_0, main_v6, main_v7, main_v8, main_v9, main_v10, main_v11 ]
theorem opsA_writes : Writes (F := F) opsA opsA_W := by
  repeat' apply And.intro
  all_goals exact writes_sub_of _ _ rfl (by decide)

abbrev opsB : List (HloOp τ sig (Elt F)) :=
  [ StableHlo.binary main_v11 main_arg5 main_v12 (fun l r => Host.dotGeneral dot_S800000x96_S96x128_S800000x128_1_0_0_1_n_n none l r),
    StableHlo.unary main_arg6 main_v13 (broadcastInDim S1x128 ![1] bcast_S128_S1x128_1),
    StableHlo.unary main_v13 main_v14 (broadcastInDim S800000x128 ![0, 1] bcast_S1x128_S800000x128_0_1),
    StableHlo.binary main_v12 main_v14 main_v15 addf,
    StableHlo.nullary main_cst (constant S_ .f32 0x00000000#32),
    StableHlo.binary main_v15 main_cst main_v16 (fun x v => Host.reduceAdd x v reducesTo_S800000x128_S128_d0 h_S_),
    StableHlo.nullary main_cst_1 (constant S_ .f32 0x49435000#32),
    StableHlo.unary main_cst_1 main_v17 (broadcastInDim S128 ![] bcast_S_S128),
    StableHlo.binary main_v16 main_v17 main_v18 Host.divf,
    StableHlo.nullary main_c_2 (constantI S_ 32 0#32),
    StableHlo.TRef.nullary main_call0.cst (constant S_ .f32 0x00000000#32),
    StableHlo.TRef.binary (.of main_v15 : StableHlo.TRef sig ⟨S800000x128, .f32⟩) main_call0.cst main_call0.v0 (fun x v => Host.reduceAdd x v reducesTo_S800000x128_S128_d0 h_S_),
    StableHlo.TRef.unary main_call0.v0 main_call0.v1 (broadcastInDim S1x128 ![1] bcast_S128_S1x128_1),
    StableHlo.TRef.nullary main_call0.cst_0 (constant S_ .f32 0x49435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S800000x128 ![0, 1] bcast_S1x128_S800000x128_0_1),
    StableHlo.TRef.binary (.of main_v15 : StableHlo.TRef sig ⟨S800000x128, .f32⟩) main_call0.v4 main_call0.v5 subf,
    StableHlo.TRef.binary main_call0.v5 main_call0.v5 main_call0.v6 mulf,
    StableHlo.TRef.unary (.of main_c_2 : StableHlo.TRef sig ⟨S_, .i32⟩) main_call0.v7 (sitofp .f32),
    StableHlo.TRef.nullary main_call0.cst_1 (constant S_ .f32 0x49435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S800000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v18 main_v20 (broadcastInDim S1x128 ![1] bcast_S128_S1x128_1),
    StableHlo.unary main_v20 main_v21 (broadcastInDim S800000x128 ![0, 1] bcast_S1x128_S800000x128_0_1),
    StableHlo.binary main_v15 main_v21 main_v22 subf,
    StableHlo.unary main_arg7 main_v23 (broadcastInDim S1x128 ![1] bcast_S128_S1x128_1),
    StableHlo.unary main_v23 main_v24 (broadcastInDim S800000x128 ![0, 1] bcast_S1x128_S800000x128_0_1),
    StableHlo.binary main_v24 main_v22 main_v25 mulf,
    StableHlo.nullary main_cst_3 (constant S_ .f32 0x3727C5AC#32),
    StableHlo.unary main_cst_3 main_v26 (broadcastInDim S128 ![] bcast_S_S128),
    StableHlo.binary main_v19 main_v26 main_v27 addf,
    StableHlo.unary main_v27 main_v28 Host.sqrt,
    StableHlo.unary main_v28 main_v29 (broadcastInDim S1x128 ![1] bcast_S128_S1x128_1),
    StableHlo.unary main_v29 main_v30 (broadcastInDim S800000x128 ![0, 1] bcast_S1x128_S800000x128_0_1),
    StableHlo.binary main_v25 main_v30 main_v31 Host.divf,
    StableHlo.unary main_arg8 main_v32 (broadcastInDim S1x128 ![1] bcast_S128_S1x128_1),
    StableHlo.unary main_v32 main_v33 (broadcastInDim S800000x128 ![0, 1] bcast_S1x128_S800000x128_0_1),
    StableHlo.binary main_v31 main_v33 main_v34 addf,
    StableHlo.TRef.nullary main_call1.cst (constant S_ .f32 0x00000000#32),
    StableHlo.TRef.unary main_call1.cst main_call1.v0 (broadcastInDim S800000x128 ![] bcast_S_S800000x128),
    StableHlo.TRef.binary (.of main_v34 : StableHlo.TRef sig ⟨S800000x128, .f32⟩) main_call1.v0 main_call1.v1 maximumf,
    StableHlo.binary main_v35 main_arg9 main_v36 (fun l r => Host.dotGeneral dot_S800000x128_S128x128_S800000x128_1_0_0_1_n_n none l r),
    StableHlo.unary main_arg10 main_v37 (broadcastInDim S1x128 ![1] bcast_S128_S1x128_1),
    StableHlo.unary main_v37 main_v38 (broadcastInDim S800000x128 ![0, 1] bcast_S1x128_S800000x128_0_1),
    StableHlo.binary main_v36 main_v38 main_v39 addf ]
abbrev opsB_W : List (Ref sig .tc) :=
  [ main_v12, main_v13, main_v14, main_v15, main_cst, main_v16, main_cst_1, main_v17, main_v18, main_c_2, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v19, main_v20, main_v21, main_v22, main_v23, main_v24, main_v25, main_cst_3, main_v26, main_v27, main_v28, main_v29, main_v30, main_v31, main_v32, main_v33, main_v34, main_call1_cst, main_call1_v0, main_v35, main_v36, main_v37, main_v38, main_v39 ]
theorem opsB_writes : Writes (F := F) opsB opsB_W := by
  repeat' apply And.intro
  all_goals exact writes_sub_of _ _ rfl (by decide)

abbrev opsC : List (HloOp τ sig (Elt F)) :=
  [ StableHlo.nullary main_cst_4 (constant S_ .f32 0x00000000#32),
    StableHlo.unary main_cst_4 main_v40 (broadcastInDim S50000x128 ![] bcast_S_S50000x128),
    StableHlo.unary main_v3 main_v41 (broadcastInDim S800000x1 ![0] bcast_S800000_S800000x1_0),
    StableHlo.ternary main_v40 main_v41 main_v39 main_v42 (fun x i u => Host.scatterAdd scatter_S50000x128_S800000x1_S800000x128_1_0_0_1 x i u),
    StableHlo.binary main_arg0 main_v42 main_v43 (fun a b => concatenate S50000x192 1 [⟨S50000x64, a⟩, ⟨S50000x128, b⟩] concatenates_S50000x64_S50000x128_S50000x192_d1) ]
abbrev opsC_W : List (Ref sig .tc) :=
  [ main_cst_4, main_v40, main_v41, main_v42, main_v43 ]
theorem opsC_writes : Writes (F := F) opsC opsC_W := by
  repeat' apply And.intro
  all_goals exact writes_sub_of _ _ rfl (by decide)

abbrev opsD : List (HloOp τ sig (Elt F)) :=
  [ StableHlo.binary main_v43 main_arg11 main_v44 (fun l r => Host.dotGeneral dot_S50000x192_S192x128_S50000x128_1_0_0_1_n_n none l r),
    StableHlo.unary main_arg12 main_v45 (broadcastInDim S1x128 ![1] bcast_S128_S1x128_1),
    StableHlo.unary main_v45 main_v46 (broadcastInDim S50000x128 ![0, 1] bcast_S1x128_S50000x128_0_1),
    StableHlo.binary main_v44 main_v46 main_v47 addf,
    StableHlo.nullary main_cst_5 (constant S_ .f32 0x00000000#32),
    StableHlo.binary main_v47 main_cst_5 main_v48 (fun x v => Host.reduceAdd x v reducesTo_S50000x128_S128_d0 h_S_),
    StableHlo.nullary main_cst_6 (constant S_ .f32 0x47435000#32),
    StableHlo.unary main_cst_6 main_v49 (broadcastInDim S128 ![] bcast_S_S128),
    StableHlo.binary main_v48 main_v49 main_v50 Host.divf,
    StableHlo.nullary main_c_7 (constantI S_ 32 0#32),
    StableHlo.TRef.nullary main_call2.cst (constant S_ .f32 0x00000000#32),
    StableHlo.TRef.binary (.of main_v47 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v47 : StableHlo.TRef sig ⟨S50000x128, .f32⟩) main_call2.v4 main_call2.v5 subf,
    StableHlo.TRef.binary main_call2.v5 main_call2.v5 main_call2.v6 mulf,
    StableHlo.TRef.unary (.of main_c_7 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v50 main_v52 (broadcastInDim S1x128 ![1] bcast_S128_S1x128_1),
    StableHlo.unary main_v52 main_v53 (broadcastInDim S50000x128 ![0, 1] bcast_S1x128_S50000x128_0_1),
    StableHlo.binary main_v47 main_v53 main_v54 subf,
    StableHlo.unary main_arg13 main_v55 (broadcastInDim S1x128 ![1] bcast_S128_S1x128_1),
    StableHlo.unary main_v55 main_v56 (broadcastInDim S50000x128 ![0, 1] bcast_S1x128_S50000x128_0_1),
    StableHlo.binary main_v56 main_v54 main_v57 mulf,
    StableHlo.nullary main_cst_8 (constant S_ .f32 0x3727C5AC#32),
    StableHlo.unary main_cst_8 main_v58 (broadcastInDim S128 ![] bcast_S_S128),
    StableHlo.binary main_v51 main_v58 main_v59 addf,
    StableHlo.unary main_v59 main_v60 Host.sqrt,
    StableHlo.unary main_v60 main_v61 (broadcastInDim S1x128 ![1] bcast_S128_S1x128_1),
    StableHlo.unary main_v61 main_v62 (broadcastInDim S50000x128 ![0, 1] bcast_S1x128_S50000x128_0_1),
    StableHlo.binary main_v57 main_v62 main_v63 Host.divf,
    StableHlo.unary main_arg14 main_v64 (broadcastInDim S1x128 ![1] bcast_S128_S1x128_1),
    StableHlo.unary main_v64 main_v65 (broadcastInDim S50000x128 ![0, 1] bcast_S1x128_S50000x128_0_1),
    StableHlo.binary main_v63 main_v65 main_v66 addf,
    StableHlo.TRef.nullary main_call3.cst (constant S_ .f32 0x00000000#32),
    StableHlo.TRef.unary main_call3.cst main_call3.v0 (broadcastInDim S50000x128 ![] bcast_S_S50000x128),
    StableHlo.TRef.binary (.of main_v66 : StableHlo.TRef sig ⟨S50000x128, .f32⟩) main_call3.v0 main_call3.v1 maximumf,
    StableHlo.binary main_v67 main_arg15 main_v68 (fun l r => Host.dotGeneral dot_S50000x128_S128x64_S50000x64_1_0_0_1_n_n none l r),
    StableHlo.unary main_arg16 main_v69 (broadcastInDim S1x64 ![1] bcast_S64_S1x64_1),
    StableHlo.unary main_v69 main_v70 (broadcastInDim S50000x64 ![0, 1] bcast_S1x64_S50000x64_0_1),
    StableHlo.binary main_v68 main_v70 main_v71 addf ]
abbrev opsD_W : List (Ref sig .tc) :=
  [ main_v44, main_v45, main_v46, main_v47, main_cst_5, main_v48, main_cst_6, main_v49, main_v50, main_c_7, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v51, main_v52, main_v53, main_v54, main_v55, main_v56, main_v57, main_cst_8, main_v58, main_v59, main_v60, main_v61, main_v62, main_v63, main_v64, main_v65, main_v66, main_call3_cst, main_call3_v0, main_v67, main_v68, main_v69, main_v70, main_v71 ]
theorem opsD_writes : Writes (F := F) opsD opsD_W := by
  repeat' apply And.intro
  all_goals exact writes_sub_of _ _ rfl (by decide)

abbrev ops : List (HloOp τ sig (Elt F)) := opsA ++ (opsB ++ (opsC ++ opsD))
abbrev ops_W : List (Ref sig .tc) := opsA_W ++ (opsB_W ++ (opsC_W ++ opsD_W))

theorem main_eq (c : Dev nD) : main (F := F) c = seq ops := by
  simp only [main, main_part0, main_part1, fn_var.body, fn_var_0.body, fn_where.body, fn_relu.body, fn_relu_1.body,
    ops, opsA, opsB, opsC, opsD, seq_append, seq, bind_assoc, pure_bind]
  rfl

theorem ops_sub : (ops : List (HloOp τ sig (Elt F))).Forall fun op => op.bufs ⊆ tcRefs τ sig := by
  repeat' apply And.intro
  all_goals simp only [List.Forall, nullary_bufs_sub, unary_bufs_sub, binary_bufs_sub, ternary_bufs_sub, reshape_bufs_sub]

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (fun b' => m (c, b')) (Proc.devRef .tc b) :=
  run_seq (by decide) (by decide) defs main (fun _ => ops) main_eq (fun _ => ops_sub) m ρ

theorem ops_writes : Writes (F := F) ops ops_W := by
  repeat' apply And.intro
  all_goals exact writes_sub_of _ _ rfl (by decide)

-- No operation of the line writes an argument buffer.
theorem kept (m : (ℓ : Loc nD τ sig) → Buf (Elt F) ℓ) (c : Dev nD) (b : Ref sig .tc)
    (hb : b ∈ ([main_arg0, main_arg1, main_arg2, main_arg3, main_arg4, main_arg5, main_arg6, main_arg7, main_arg8, main_arg9, main_arg10, main_arg11, main_arg12, main_arg13, main_arg14, main_arg15, main_arg16] : List (Ref sig .tc))) :
    StableHlo.after ops (fun b' => m (c, b')) (Proc.devRef .tc b) = m ((c.tc : Thread nD τ).loc b) :=
  after_of_writes_sub ops _ ops_writes (by revert b; decide)

end Cert.ReferenceIdeal.Hand

end
-- ==== Proof.Ref.Term.lean ====
import proofs.«128199_j65335042507073_1_alg».proof.ReferenceIdeal
import proofs.«128199_j65335042507073_1_alg».proof.Proof.Gen.ReferenceIdeal
import proofs.«128199_j65335042507073_1_alg».proof.Proof.Spec
import Idealize.ShloMosaic.Lib.IdealHost
import Idealize.ShloMosaic.Lib.StackMember

noncomputable section

namespace Cert.ReferenceIdeal.Hand

open Cert.ReferenceIdeal Cert.Spec Idealize.ShloMosaic Idealize.ShloMosaic.ValueIdx
open scoped BigOperators

theorem bcastRow_apply {α : Type} {H : ℕ} (h : (⟨1, ![H]⟩ : Shape).BroadcastsInDim ⟨2, ![1, H]⟩ (![1] : Fin 1 → Fin 2))
    (v : (⟨1, ![H]⟩ : Shape).Idx → α) (z : Fin 1) (k : Fin H) :
    broadcastInDim ⟨2, ![1, H]⟩ (![1] : Fin 1 → Fin 2) h v (ix2 z k) = v (ix1 k) := by
  refine broadcastInDim_apply _ h v _ (ix1 k) fun a => ?_
  match a with
  | ⟨0, _⟩ =>
    show k.val = if H = 1 then 0 else k.val
    split
    · have := k.isLt; omega
    · rfl

theorem bcastMat_apply {α : Type} {n H : ℕ} (h : (⟨2, ![1, H]⟩ : Shape).BroadcastsInDim ⟨2, ![n, H]⟩ (![0, 1] : Fin 2 → Fin 2))
    (r : (⟨2, ![1, H]⟩ : Shape).Idx → α) (e : Fin n) (k : Fin H) :
    broadcastInDim ⟨2, ![n, H]⟩ (![0, 1] : Fin 2 → Fin 2) h r (ix2 e k) = r (ix2 0 k) :=
  broadcastInDim_oneRow_apply h r e k
theorem bcastScalar_apply {α : Type} {r : ℕ} {d : Fin r → ℕ} (h : S_.BroadcastsInDim ⟨r, d⟩ (![] : Fin 0 → Fin r))
    (x : S_.Idx → α) (j : (⟨r, d⟩ : Shape).Idx) : broadcastInDim ⟨r, d⟩ (![] : Fin 0 → Fin r) h x j = x ix0 :=
  broadcastInDim_scalar_apply h x j

theorem colReduce_apply {n H : ℕ} (h' : (⟨2, ![n, H]⟩ : Shape).ReducesTo [0] ⟨1, ![H]⟩) (hu : 0 < S_.numel)
    (x : FVec Ideal ⟨2, ![n, H]⟩ .f32) (init : FVec Ideal S_ .f32) (k : Fin H) :
    Host.reduceAdd (F := Ideal) x init h' hu (ix1 k) = init ix0 + ∑ e : Fin n, x (ix2 e k) := by
  refine (hostReduceAdd_apply x init h' hu (ix1 k)).trans ((Ideal.hostReduceAdd_single h' ⟨h'.1, Nat.one_pos, h'.2⟩ x _ (ix1 k)).trans ?_)
  refine congrArg₂ (· + ·) (congrArg init (eq_ix0 _)) (Finset.sum_congr rfl fun e _ => congrArg x (funext fun a => Fin.ext ?_))
  match a with
  | ⟨0, _⟩ => rfl
  | ⟨1, _⟩ => rfl

theorem cat_eq {n A B : ℕ} (x : (⟨2, ![n, A]⟩ : Shape).Idx → EReal) (y : (⟨2, ![n, B]⟩ : Shape).Idx → EReal)
    (h : Shape.Concatenates [(⟨2, ![n, A]⟩ : Shape), ⟨2, ![n, B]⟩] ⟨2, ![n, A + B]⟩ 1) :
    mat (concatenate ⟨2, ![n, A + B]⟩ 1 [⟨⟨2, ![n, A]⟩, x⟩, ⟨⟨2, ![n, B]⟩, y⟩] h) = cat (mat x) (mat y) := by
  funext e k
  unfold cat
  split
  · next hk =>
    refine concatenate_pair_apply_left 1 x y h (ix2 e k) rfl (ix2 e ⟨k.val, hk⟩) fun b => ?_
    match b with
    | ⟨0, _⟩ => rfl
    | ⟨1, _⟩ => rfl
  · next hk =>
    refine concatenate_pair_apply_right 1 x y h (ix2 e k) rfl rfl (ix2 e ⟨k.val - A, by omega⟩) (fun b hb => ?_) ?_
    · match b with
      | ⟨0, _⟩ => rfl
      | ⟨1, _⟩ => exact absurd rfl hb
    · show k.val - A + A = k.val
      omega

theorem sitofp_zero32 : FloatOps.sitofp (F := Ideal) .f32 (0#32 : BitVec 32) = (0 : EReal) := by
  show ((((0#32 : BitVec 32).toInt : ℝ)) : EReal) = 0
  simp

theorem cmpf_ogt_zero {x : EReal} (h : 0 < x) : FloatOps.cmpf (F := Ideal) (φ := .f32) .ogt x (0 : EReal) = 1#1 := by
  show BitVec.ofBool (decide ((0 : EReal) < x)) = 1#1
  simp [h]

-- The block chooses its variance divisor by comparing the row count with zero; both counts are positive.
theorem ofBits_800000_pos : (0 : EReal) < Ideal.ofBits .f32 0x49435000#32 := by simp [Ideal.ofBits, Ideal.ieee, -EReal.coe_mul]
theorem ofBits_50000_pos : (0 : EReal) < Ideal.ofBits .f32 0x47435000#32 := by simp [Ideal.ofBits, Ideal.ieee, -EReal.coe_mul]

section Term
variable {F : FTy → Type} [FloatOps F] [Facts₀]
open Facts₀

-- The node-feature row each edge names in the first index row, a negative entry counted from the end.
def xrowR (a0 : Vec F S50000x64 .f32) (a1 : Vec F S2x800000 .i32) : Vec F S800000x64 .f32 :=
  have v : IVec S800000 32 := shapeCast S800000 (extractStridedSlice S1x800000 ![0, 0] a1 slices_S2x800000_S1x800000_0_0) shapeCasts_S1x800000_S800000
  have neg : IVec S800000 1 := cmpi .slt v (broadcastInDim S800000 ![] bcast_S_S800000 (constantI S_ 32 0#32))
  have up : IVec S800000 32 := addi v (broadcastInDim S800000 ![] bcast_S_S800000 (constantI S_ 32 50000#32))
  Host.gather gather_S50000x64_S800000x1_S800000x64_1_0_n_n_0_1_164 a0
    (broadcastInDim S800000x1 ![0] bcast_S800000_S800000x1_0 (select neg up v))

-- The update rows summed into zeros at the rows the second index row names.
def aggR (a1 : Vec F S2x800000 .i32) (u : Vec F S800000x128 .f32) : Vec F S50000x128 .f32 :=
  have v : IVec S800000 32 := shapeCast S800000 (extractStridedSlice S1x800000 ![1, 0] a1 slices_S2x800000_S1x800000_1_0) shapeCasts_S1x800000_S800000
  Host.scatterAdd (F := F) scatter_S50000x128_S800000x1_S800000x128_1_0_0_1
    (broadcastInDim S50000x128 ![] bcast_S_S50000x128 (constant (F := F) S_ .f32 0#32))
    (broadcastInDim S800000x1 ![0] bcast_S800000_S800000x1_0 v) u

variable (n K O : ℕ) (cnt : BitVec 32)
    (D1 : DotDims ⟨2, ![n, K]⟩ ⟨2, ![K, 128]⟩ ⟨2, ![n, 128]⟩) (D2 : DotDims ⟨2, ![n, 128]⟩ ⟨2, ![128, O]⟩ ⟨2, ![n, O]⟩)
    (fb1 : S128.BroadcastsInDim S1x128 (![1] : Fin 1 → Fin S1x128.rank))
    (fb2 : S1x128.BroadcastsInDim ⟨2, ![n, 128]⟩ (![0, 1] : Fin 2 → Fin (⟨2, ![n, 128]⟩ : Shape).rank))
    (fr : (⟨2, ![n, 128]⟩ : Shape).ReducesTo [0] S128) (fh : 0 < S_.numel)
    (fs128 : S_.BroadcastsInDim S128 (![] : Fin 0 → Fin S128.rank))
    (fs1x128 : S_.BroadcastsInDim S1x128 (![] : Fin 0 → Fin S1x128.rank))
    (fsn128 : S_.BroadcastsInDim ⟨2, ![n, 128]⟩ (![] : Fin 0 → Fin (⟨2, ![n, 128]⟩ : Shape).rank))
    (fbO1 : (⟨1, ![O]⟩ : Shape).BroadcastsInDim ⟨2, ![1, O]⟩ (![1] : Fin 1 → Fin (⟨2, ![1, O]⟩ : Shape).rank))
    (fbO2 : (⟨2, ![1, O]⟩ : Shape).BroadcastsInDim ⟨2, ![n, O]⟩ (![0, 1] : Fin 2 → Fin (⟨2, ![n, O]⟩ : Shape).rank))

-- One perceptron block over n rows: affine map, normalisation by the column mean and variance, gain and shift, clamp at zero, affine map.
def blockT (X : Vec F ⟨2, ![n, K]⟩ .f32) (Wa : Vec F ⟨2, ![K, 128]⟩ .f32) (ba g be : Vec F S128 .f32)
    (Wb : Vec F ⟨2, ![128, O]⟩ .f32) (bb : Vec F ⟨1, ![O]⟩ .f32) : Vec F ⟨2, ![n, O]⟩ .f32 :=
  have z : FVec F S_ .f32 := constant S_ .f32 0#32
  have c : FVec F S_ .f32 := constant S_ .f32 cnt
  have row (v : FVec F S128 .f32) : FVec F ⟨2, ![n, 128]⟩ .f32 :=
    broadcastInDim ⟨2, ![n, 128]⟩ ![0, 1] fb2 (broadcastInDim S1x128 ![1] fb1 v)
  have sum (x : FVec F ⟨2, ![n, 128]⟩ .f32) : FVec F S128 .f32 := Host.reduceAdd x z fr fh
  have h : FVec F ⟨2, ![n, 128]⟩ .f32 := addf (Host.dotGeneral D1 none X Wa) (row ba)
  have d : FVec F ⟨2, ![n, 128]⟩ .f32 := subf h (broadcastInDim ⟨2, ![n, 128]⟩ ![0, 1] fb2
    (Host.divf (broadcastInDim S1x128 ![1] fb1 (sum h)) (broadcastInDim S1x128 ![] fs1x128 c)))
  have m : FVec F S_ .f32 := subf c (sitofp .f32 (constantI S_ 32 0#32))
  have var : FVec F S128 .f32 := select (broadcastInDim S128 ![] fs128 (cmpf .ogt m z))
    (Host.divf (sum (mulf d d)) (broadcastInDim S128 ![] fs128 m))
    (broadcastInDim S128 ![] fs128 (constant S_ .f32 0x7FC00000#32))
  have sd : FVec F S128 .f32 := Host.sqrt (addf var (broadcastInDim S128 ![] fs128 (constant S_ .f32 0x3727C5AC#32)))
  have y : FVec F ⟨2, ![n, 128]⟩ .f32 := addf (Host.divf
    (mulf (row g) (subf h (row (Host.divf (sum h) (broadcastInDim S128 ![] fs128 c))))) (row sd)) (row be)
  addf (Host.dotGeneral D2 none (maximumf y (broadcastInDim ⟨2, ![n, 128]⟩ ![] fsn128 z)) Wb)
    (broadcastInDim ⟨2, ![n, O]⟩ ![0, 1] fbO2 (broadcastInDim ⟨2, ![1, O]⟩ ![1] fbO1 bb))

variable {n K O cnt D1 D2 fb1 fb2 fr fh fs128 fs1x128 fsn128 fbO1 fbO2}

-- Every operation is pointwise, a repetition along an axis, a column sum or a matrix product, so both sides unfold to one expression.
theorem block_eq (hpos : 0 < Ideal.ofBits .f32 cnt)
    (X : FVec Ideal ⟨2, ![n, K]⟩ .f32) (Wa : FVec Ideal ⟨2, ![K, 128]⟩ .f32) (ba g be : FVec Ideal S128 .f32)
    (Wb : FVec Ideal ⟨2, ![128, O]⟩ .f32) (bb : FVec Ideal ⟨1, ![O]⟩ .f32) :
    blockT (F := Ideal) n K O cnt (.plain n K 128) (.plain n 128 O) fb1 fb2 fr fh fs128 fs1x128 fsn128 fbO1 fbO2 X Wa ba g be Wb bb
      = unmat (mlpR (Ideal.ofBits .f32 cnt) (Ideal.ofBits .f32 0x3727C5AC#32) (mat X) (mat Wa) (vec ba) (vec g) (vec be) (mat Wb) (vec bb)) := by
  funext i
  obtain ⟨p, q, rfl⟩ : ∃ (p : Fin n) (q : Fin O), i = ix2 p q := ⟨i 0, i 1, eq_ix2 i⟩
  unfold blockT
  simp only [addf_apply, subf_apply, mulf_apply, maximumf_apply, hostDivf_apply, Host.sqrt, select_apply, cmpf_apply,
    sitofp_apply, constant_apply, constantI, bcastScalar_apply, bcastRow_apply, bcastMat_apply,
    colReduce_apply, StackMember.dotGeneral_plain_apply, Ideal.ofBits_zero_f32, zero_add, sitofp_zero32, sub_zero,
    cmpf_ogt_zero hpos, select_one]
  rfl

-- The whole program: the second block over the node features beside the summed messages of the first block.
def refTerm (a0 : Vec F S50000x64 .f32) (a1 : Vec F S2x800000 .i32) (a2 : Vec F S800000x32 .f32) (a5 : Vec F S96x128 .f32)
    (a6 a7 a8 : Vec F S128 .f32) (a9 : Vec F S128x128 .f32) (a10 : Vec F S128 .f32) (a11 : Vec F S192x128 .f32)
    (a12 a13 a14 : Vec F S128 .f32) (a15 : Vec F S128x64 .f32) (a16 : Vec F S64 .f32) : Vec F S50000x64 .f32 :=
  blockT (F := F) 50000 192 64 0x47435000#32 (.plain 50000 192 128) (.plain 50000 128 64)
    bcast_S128_S1x128_1 bcast_S1x128_S50000x128_0_1 reducesTo_S50000x128_S128_d0 h_S_ bcast_S_S128 bcast_S_S1x128 bcast_S_S50000x128
    bcast_S64_S1x64_1 bcast_S1x64_S50000x64_0_1
    (concatenate S50000x192 1 [⟨S50000x64, a0⟩, ⟨S50000x128, aggR a1
      (blockT (F := F) 800000 96 128 0x49435000#32 (.plain 800000 96 128) (.plain 800000 128 128)
        bcast_S128_S1x128_1 bcast_S1x128_S800000x128_0_1 reducesTo_S800000x128_S128_d0 h_S_ bcast_S_S128 bcast_S_S1x128 bcast_S_S800000x128
        bcast_S128_S1x128_1 bcast_S1x128_S800000x128_0_1
        (concatenate S800000x96 1 [⟨S800000x64, xrowR a0 a1⟩, ⟨S800000x32, a2⟩] concatenates_S800000x64_S800000x32_S800000x96_d1)
        a5 a6 a7 a8 a9 a10)⟩] concatenates_S50000x64_S50000x128_S50000x192_d1)
    a11 a12 a13 a14 a15 a16

end Term

theorem refTerm_eq (a0 : Vec Ideal S50000x64 .f32) (a1 : Vec Ideal S2x800000 .i32) (a2 : Vec Ideal S800000x32 .f32)
    (a5 : Vec Ideal S96x128 .f32) (a6 a7 a8 : Vec Ideal S128 .f32) (a9 : Vec Ideal S128x128 .f32) (a10 : Vec Ideal S128 .f32)
    (a11 : Vec Ideal S192x128 .f32) (a12 a13 a14 : Vec Ideal S128 .f32) (a15 : Vec Ideal S128x64 .f32) (a16 : Vec Ideal S64 .f32) (p : Fin 50000) (q : Fin 64) :
    refTerm (F := Ideal) a0 a1 a2 a5 a6 a7 a8 a9 a10 a11 a12 a13 a14 a15 a16 (ix2 p q)
      = mlpR (Ideal.ofBits .f32 0x47435000#32) (Ideal.ofBits .f32 0x3727C5AC#32) (cat (mat a0) (mat (aggR a1 (unmat (mlpR (Ideal.ofBits .f32 0x49435000#32) (Ideal.ofBits .f32 0x3727C5AC#32)
            (cat (mat (xrowR a0 a1)) (mat a2)) (mat a5) (vec a6) (vec a7) (vec a8) (mat a9) (vec a10))))))
          (mat a11) (vec a12) (vec a13) (vec a14) (mat a15) (vec a16) p q := by
  unfold refTerm
  rw [block_eq ofBits_50000_pos, block_eq ofBits_800000_pos, cat_eq (A := 64) (B := 128), cat_eq (A := 64) (B := 32)]
  rfl

end Cert.ReferenceIdeal.Hand

end
-- ==== Proof.Ref.Join.lean ====
import proofs.«128199_j65335042507073_1_alg».proof.Proof.Ref.Run
import proofs.«128199_j65335042507073_1_alg».proof.Proof.Ref.Term

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- Each stretch is read on its own, from any contents; `join` chains the readings.
theorem stageA (W : Valuation τ sig (Elt F)) :
    StableHlo.after opsA W (Proc.devRef .tc main_v11)
      = concatenate S800000x96 1 [⟨S800000x64, xrowR (W (Proc.devRef .tc main_arg0)) (W (Proc.devRef .tc main_arg1))⟩, ⟨S800000x32, (W (Proc.devRef .tc main_arg2))⟩]
          concatenates_S800000x64_S800000x32_S800000x96_d1 := by
  after_results_simp
  rfl

theorem stageA3 (W : Valuation τ sig (Elt F)) :
    StableHlo.after opsA W (Proc.devRef .tc main_v3)
      = shapeCast S800000 (extractStridedSlice S1x800000 ![1, 0] (W (Proc.devRef .tc main_arg1)) slices_S2x800000_S1x800000_1_0) shapeCasts_S1x800000_S800000 := by
  after_results_simp
  rfl

theorem stageB (W : Valuation τ sig (Elt F)) :
    StableHlo.after opsB W (Proc.devRef .tc main_v39)
      = blockT (F := F) 800000 96 128 0x49435000#32 dot_S800000x96_S96x128_S800000x128_1_0_0_1_n_n dot_S800000x128_S128x128_S800000x128_1_0_0_1_n_n
        bcast_S128_S1x128_1 bcast_S1x128_S800000x128_0_1 reducesTo_S800000x128_S128_d0 h_S_ bcast_S_S128 bcast_S_S1x128 bcast_S_S800000x128 bcast_S128_S1x128_1 bcast_S1x128_S800000x128_0_1
        (W (Proc.devRef .tc main_v11)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  after_results_simp
  rfl

theorem stageC (W : Valuation τ sig (Elt F)) :
    StableHlo.after opsC W (Proc.devRef .tc main_v43)
      = concatenate S50000x192 1 [⟨S50000x64, (W (Proc.devRef .tc main_arg0))⟩, ⟨S50000x128,
          Host.scatterAdd (F := F) scatter_S50000x128_S800000x1_S800000x128_1_0_0_1
            (broadcastInDim S50000x128 ![] bcast_S_S50000x128 (constant (F := F) S_ .f32 0x00000000#32))
            (broadcastInDim S800000x1 ![0] bcast_S800000_S800000x1_0 (W (Proc.devRef .tc main_v3))) (W (Proc.devRef .tc main_v39))⟩]
          concatenates_S50000x64_S50000x128_S50000x192_d1 := by
  after_results_simp
  rfl

theorem stageD (W : Valuation τ sig (Elt F)) :
    StableHlo.after opsD W (Proc.devRef .tc main_v71)
      = blockT (F := F) 50000 192 64 0x47435000#32 dot_S50000x192_S192x128_S50000x128_1_0_0_1_n_n dot_S50000x128_S128x64_S50000x64_1_0_0_1_n_n
        bcast_S128_S1x128_1 bcast_S1x128_S50000x128_0_1 reducesTo_S50000x128_S128_d0 h_S_ bcast_S_S128 bcast_S_S1x128 bcast_S_S50000x128 bcast_S64_S1x64_1 bcast_S1x64_S50000x64_0_1
        (W (Proc.devRef .tc main_v43)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  after_results_simp
  rfl

-- The four readings composed are the term.
theorem join (m : (ℓ : Loc nD τ sig) → Buf (Elt F) ℓ) (c : Dev nD) :
    StableHlo.after (ops (F := F)) (fun b' => m (c, b')) (Proc.devRef .tc main_v71)
      = refTerm (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [ops, after_append, after_append, after_append, stageD, stageC, stageB]
  repeat (rw [after_of_writes_sub opsC _ opsC_writes]; rotate_left; decide)
  repeat (rw [after_of_writes_sub opsB _ opsB_writes]; rotate_left; decide)
  rw [stageA3, stageA]
  repeat (rw [after_of_writes_sub opsA _ opsA_writes]; rotate_left; decide)
  rfl

end Cert.ReferenceIdeal.Hand

end
-- ==== Proof.GS.lean ====
import proofs.«128199_j65335042507073_1_alg».proof.Proof.Spec
import proofs.«128199_j65335042507073_1_alg».proof.Proof.SpecLaws

noncomputable section

namespace Cert.Spec

open Idealize.ShloMosaic Idealize.ShloMosaic.ValueIdx

-- A real plus a finite sum of reals is a real.
theorem add_sum_real {ι : Type} (a : EReal) (s : Finset ι) (f : ι → EReal) (ha : ∃ r : ℝ, a = (r : EReal))
    (hf : ∀ i, ∃ r : ℝ, f i = (r : EReal)) : ∃ r : ℝ, a + ∑ i ∈ s, f i = (r : EReal) := by
  obtain ⟨a', rfl⟩ := ha
  choose g hg using hf
  exact ⟨a' + ∑ i ∈ s, g i, by rw [EReal.coe_add, ← coe_sum]; exact congrArg _ (Finset.sum_congr rfl fun i _ => hg i)⟩

theorem real_at {a b : ℕ} {x : (⟨2, ![a, b]⟩ : Shape).Idx → EReal} (hx : Fin2 (mat x)) (i : (⟨2, ![a, b]⟩ : Shape).Idx) :
    ∃ r : ℝ, x i = (r : EReal) := by
  rw [eq_ix2 i]; exact hx _ _

-- Every gathered entry is an entry of the table.
theorem gather_fin {N C n : ℕ} {si : Shape} {w : ℕ} (d : GatherDims ⟨2, ![N, C]⟩ si ⟨2, ![n, C]⟩)
    (x : (⟨2, ![N, C]⟩ : Shape).Idx → EReal) (idx : IVec si w) (hx : Fin2 (mat x)) :
    Fin2 (mat (Host.gather d x idx)) := fun _ _ => real_at hx _

-- Every accumulated entry is the operand's entry plus a finite sum of update entries.
theorem scatterAdd_fin {N C n : ℕ} {si : Shape} {w : ℕ} (d : ScatterDims ⟨2, ![N, C]⟩ si ⟨2, ![n, C]⟩)
    (x : FVec Ideal ⟨2, ![N, C]⟩ .f32) (idx : IVec si w) (upd : FVec Ideal ⟨2, ![n, C]⟩ .f32)
    (hx : Fin2 (mat x)) (hu : Fin2 (mat upd)) :
    Fin2 (mat (Host.scatterAdd (F := Ideal) d x idx upd)) := fun c j =>
  add_sum_real _ _ _ (hx c j) (real_at hu)

end Cert.Spec

end
-- ==== Proof.Bridge.lean ====
import proofs.«128199_j65335042507073_1_alg».proof.Proof.KI.Glue
import proofs.«128199_j65335042507073_1_alg».proof.Proof.Ref.Term
import proofs.«128199_j65335042507073_1_alg».proof.Proof.SpecLaws
import proofs.«128199_j65335042507073_1_alg».proof.Proof.GS

noncomputable section

namespace Cert.Hand

open Idealize.ShloMosaic Idealize.ShloMosaic.ValueIdx
open Cert.Spec Cert.KernelIdeal.Hand Cert.ReferenceIdeal.Hand
open Cert.KernelIdeal (S50000x64 S2x800000 S800000x32 S96x128 S128 S128x128 S192x128 S128x64 S64)

-- The two results differ only in the form of the variance and of the scaling, which agree on real rows; the gather, each block and the accumulation keep rows real.
theorem bridge (a0 : Vec Ideal S50000x64 .f32) (a1 : Vec Ideal S2x800000 .i32) (a2 : Vec Ideal S800000x32 .f32)
    (a5 : Vec Ideal S96x128 .f32) (a6 a7 a8 : Vec Ideal S128 .f32) (a9 : Vec Ideal S128x128 .f32)
    (a10 : Vec Ideal S128 .f32) (a11 : Vec Ideal S192x128 .f32) (a12 a13 a14 : Vec Ideal S128 .f32)
    (a15 : Vec Ideal S128x64 .f32) (a16 : Vec Ideal S64 .f32)
    (h0 : Fin2 (mat a0)) (h2 : Fin2 (mat a2)) (h5 : Fin2 (mat a5))
    (h6 : Fin1 (vec a6)) (h7 : Fin1 (vec a7)) (h8 : Fin1 (vec a8))
    (h9 : Fin2 (mat a9)) (h10 : Fin1 (vec a10)) (h11 : Fin2 (mat a11))
    (h12 : Fin1 (vec a12)) (h13 : Fin1 (vec a13)) (h14 : Fin1 (vec a14))
    (h15 : Fin2 (mat a15)) (h16 : Fin1 (vec a16)) :
    KOut a0 a1 a2 a5 a6 a7 a8 a9 a10 a11 a12 a13 a14 a15 a16
      = refTerm (F := Ideal) a0 a1 a2 a5 a6 a7 a8 a9 a10 a11 a12 a13 a14 a15 a16 := by
  obtain ⟨ε, hε, heps⟩ := ofBits_eps
  have hX : Fin2 (cat (mat (xrowK a0 a1)) (mat a2)) :=
    cat_fin (gather_fin _ a0 _ h0) h2
  have hA : ∀ m, Fin2 m → Fin2 (mat (aggK a1 (unmat m))) := fun m =>
    scatterAdd_fin _ _ _ (unmat m) fun _ _ => ⟨0, Ideal.ofBits_zero_f32.trans EReal.coe_zero.symm⟩
  funext i
  obtain ⟨p, q, rfl⟩ : ∃ p q, i = ix2 p q := ⟨i 0, i 1, eq_ix2 i⟩
  rw [refTerm_eq]
  unfold KOut
  simp only [unmat_apply, c1K, c2K, epsK, ofBits_800000, ofBits_50000, heps]
  rw [mlpK_eq_mlpR 800000 ε (by norm_num) (by norm_num) hε _ _ _ _ hX h5 h6,
    mlpK_eq_mlpR 50000 ε (by norm_num) (by norm_num) hε _ _ _ _
      (cat_fin h0 (hA _ (mlpR_fin 800000 ε (by norm_num) (by norm_num) hε hX h5 h6 h7 h8 h9 h10))) h11 h12]
  rfl

end Cert.Hand

end
-- ==== Proof.Fin.lean ====
import proofs.«128199_j65335042507073_1_alg».proof.Pre_finite_inputs
import proofs.«128199_j65335042507073_1_alg».proof.Proof.Gen.Pre_finite_inputs
import proofs.«128199_j65335042507073_1_alg».proof.Proof.Spec
import Idealize.ShloMosaic.Lib.ReduceAll
import Idealize.ShloMosaic.Lib.ValueIdx

noncomputable section

namespace Cert.Spec

open Idealize.ShloMosaic Idealize.ShloMosaic.ValueIdx Cert.Pre_finite_inputs

theorem real_of_abs_lt (x : EReal)
    (h : Ideal.cmp .olt (max x (-x)) (Ideal.ofBits .f32 0x7F800000#32) = 1#1) : ∃ r : ℝ, x = (r : EReal) := by
  rw [show Ideal.ofBits .f32 0x7F800000#32 = (⊤ : EReal) by simp [Ideal.ofBits, Ideal.ieee]] at h
  induction x using EReal.rec with
  | coe r => exact ⟨r, rfl⟩
  | _ => simp [Ideal.cmp] at h

instance : Subsingleton S_.Idx := ⟨fun a b => funext fun d => d.elim0⟩

theorem all_real {S : Shape} {axes : List (Fin S.rank)} {bc : S_.BroadcastsInDim S (![] : Fin 0 → Fin S.rank)}
    {hr : S.ReducesTo axes S_} {hu : 0 < S_.numel} {x : FVec Ideal S .f32} {init : IVec S_ 1}
    (e : Host.reduce IntOp.andi
          (cmpf .olt (Host.absf x) (broadcastInDim S ![] bc (constant (F := Ideal) S_ .f32 0x7F800000#32)))
          init hr hu ix0 = 1#1)
    (i : S.Idx) : ∃ r : ℝ, x i = (r : EReal) :=
  real_of_abs_lt (x i) (Host.reduce_andi_all _ init hr hu ix0 e i)

theorem fin_of_pre (a0 : Vec Ideal S50000x64 .f32) (a1 : Vec Ideal S2x800000 .i32) (a2 : Vec Ideal S800000x32 .f32)
    (a3 : Vec Ideal S1x16 .f32) (a4 : Vec Ideal S50000 .i32) (a5 : Vec Ideal S96x128 .f32)
    (a6 : Vec Ideal S128 .f32) (a7 : Vec Ideal S128 .f32) (a8 : Vec Ideal S128 .f32)
    (a9 : Vec Ideal S128x128 .f32) (a10 : Vec Ideal S128 .f32) (a11 : Vec Ideal S192x128 .f32)
    (a12 : Vec Ideal S128 .f32) (a13 : Vec Ideal S128 .f32) (a14 : Vec Ideal S128 .f32)
    (a15 : Vec Ideal S128x64 .f32) (a16 : Vec Ideal S64 .f32)
    (h : Cert.Pre_finite_inputs.fn (F := Ideal) a0 a1 a2 a3 a4 a5 a6 a7 a8 a9 a10 a11 a12 a13 a14 a15 a16
          = fun _ => 1#1) :
    Spec.Fin2 (Spec.mat a0) ∧ Spec.Fin2 (Spec.mat a2) ∧ Spec.Fin2 (Spec.mat a5) ∧ Spec.Fin1 (Spec.vec a6)
      ∧ Spec.Fin1 (Spec.vec a7) ∧ Spec.Fin1 (Spec.vec a8) ∧ Spec.Fin2 (Spec.mat a9) ∧ Spec.Fin1 (Spec.vec a10)
      ∧ Spec.Fin2 (Spec.mat a11) ∧ Spec.Fin1 (Spec.vec a12) ∧ Spec.Fin1 (Spec.vec a13) ∧ Spec.Fin1 (Spec.vec a14)
      ∧ Spec.Fin2 (Spec.mat a15) ∧ Spec.Fin1 (Spec.vec a16) := by
  have h0 := congrFun h ix0
  dsimp only [fn, fn_part1, fn_part2, fn_part3, fn_part4] at h0
  simp only [andi, IntOp.andi_eq_one] at h0
  obtain ⟨⟨⟨⟨⟨⟨⟨⟨⟨⟨⟨⟨⟨⟨e0, e2⟩, e3⟩, e5⟩, e6⟩, e7⟩, e8⟩, e9⟩, e10⟩, e11⟩, e12⟩, e13⟩, e14⟩, e15⟩, e16⟩ := h0
  exact ⟨fun _ _ => all_real e0 _, fun _ _ => all_real e2 _, fun _ _ => all_real e5 _, fun _ => all_real e6 _,
    fun _ => all_real e7 _, fun _ => all_real e8 _, fun _ _ => all_real e9 _, fun _ => all_real e10 _,
    fun _ _ => all_real e11 _, fun _ => all_real e12 _, fun _ => all_real e13 _, fun _ => all_real e14 _,
    fun _ _ => all_real e15 _, fun _ => all_real e16 _⟩

end Cert.Spec

end
-- ==== Proof.lean ====
import proofs.«128199_j65335042507073_1_alg».proof.Defs
import proofs.«128199_j65335042507073_1_alg».proof.Proof.Gen.Kernel
import proofs.«128199_j65335042507073_1_alg».proof.Proof.Gen.KernelIdeal
import proofs.«128199_j65335042507073_1_alg».proof.Proof.Gen.ReferenceIdeal
import proofs.«128199_j65335042507073_1_alg».proof.Proof.Gen.Pre_finite_inputs
import proofs.«128199_j65335042507073_1_alg».proof.Proof.K.Run
import proofs.«128199_j65335042507073_1_alg».proof.Proof.KI.Value
import proofs.«128199_j65335042507073_1_alg».proof.Proof.Ref.Join
import proofs.«128199_j65335042507073_1_alg».proof.Proof.Bridge
import proofs.«128199_j65335042507073_1_alg».proof.Proof.Fin

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

-- None of the reference's operations writes an argument.
theorem frame_ri : Cert.frame_ReferenceIdeal := fun m ρ _ =>
  (θ_run Cert.ReferenceIdeal.defs _ _).mono (fun r h c => by
    repeat' apply And.intro
    all_goals exact (h c _).trans (Cert.ReferenceIdeal.Hand.kept m c _ (by decide)))
    (Cert.ReferenceIdeal.Hand.run_all (F := Ideal) m ρ)

theorem preserves : Cert.preserves_Kernel_KernelIdeal := trivial

-- Both results are the same two perceptron blocks; on real-valued arguments their two forms are one function.
theorem algebraic : Cert.algebraic_KernelIdeal_ReferenceIdeal := by
  intro m ρ m' ρ' hpre hagree
  refine ⟨_, (θ_run Cert.KernelIdeal.defs _ _).mono
      (fun r h c => ⟨(h c).1.trans (Cert.KernelIdeal.Hand.kernel_value m ρ c), (h c).2⟩)
      (Cert.KernelIdeal.Hand.run_v29 (F := Ideal) m ρ),
    (θ_run Cert.ReferenceIdeal.defs _ _).mono (fun r h c => ⟨?_, ?_⟩)
      (Cert.ReferenceIdeal.Hand.run_all (F := Ideal) m' ρ')⟩
  · obtain ⟨h0, h2, h5, h6, h7, h8, h9, h10, h11, h12, h13, h14, h15, h16⟩ :=
      Cert.Spec.fin_of_pre _ _ _ _ _ _ _ _ _ _ _ _ _ _ _ _ _ (hpre c)
    obtain ⟨e0, e1, e2, e3, e4, e5, e6, e7, e8, e9, e10, e11, e12, e13, e14, e15, e16⟩ := hagree c
    rw [h c Cert.ReferenceIdeal.main_v71, Cert.ReferenceIdeal.Hand.join m' c, e0, e1, e2, e5, e6, e7, e8, e9, e10, e11, e12,
      e13, e14, e15, e16]
    exact (Cert.Hand.bridge _ _ _ _ _ _ _ _ _ _ _ _ _ _ _ h0 h2 h5 h6 h7 h8 h9 h10 h11 h12 h13 h14 h15 h16).symm
  · repeat' apply And.intro
    all_goals exact (h c _).trans (Cert.ReferenceIdeal.Hand.kept m' c _ (by decide))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
